-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x6 : Shape := ⟨2, ![1000000, 6]⟩
abbrev S8000000x2 : Shape := ⟨2, ![8000000, 2]⟩
abbrev S2x8000000 : Shape := ⟨2, ![2, 8000000]⟩
abbrev S_ : Shape := ⟨0, ![]⟩

class Facts : Prop where
  bcast_S_S1000000x6 : S_.BroadcastsInDim S1000000x6 (![] : Fin 0 → Fin S1000000x6.rank)
  reducesTo_S1000000x6_S_d0_1 : S1000000x6.ReducesTo [0, 1] S_
  h_S_ : 0 < S_.numel
  bcast_S_S8000000x2 : S_.BroadcastsInDim S8000000x2 (![] : Fin 0 → Fin S8000000x2.rank)
  reducesTo_S8000000x2_S_d0_1 : S8000000x2.ReducesTo [0, 1] S_

variable [Facts]

def fn {F : FTy → Type} [FloatOps F] (main_arg0 : FVec F S1000000x6 .f32) (main_arg1 : FVec F S8000000x2 .f32) (main_arg2 : FVec F S1000000x6 .f32) (main_arg3 : IVec S2x8000000 32) : IVec S_ 1 :=
  let main_v0 : FVec F S1000000x6 .f32 := Host.absf main_arg0
  let main_cst : FVec F S_ .f32 := constant S_ .f32 0x7F800000#32
  let main_v1 : FVec F S1000000x6 .f32 := broadcastInDim S1000000x6 ![] bcast_S_S1000000x6 main_cst
  let main_v2 : IVec S1000000x6 1 := cmpf .olt main_v0 main_v1
  let main_c : IVec S_ 1 := constantI S_ 1 1#1
  let main_v3 : IVec S_ 1 := (fun x v => Host.reduce IntOp.andi x v reducesTo_S1000000x6_S_d0_1 h_S_) main_v2 main_c
  let main_v4 : FVec F S8000000x2 .f32 := Host.absf main_arg1
  let main_cst_0 : FVec F S_ .f32 := constant S_ .f32 0x7F800000#32
  let main_v5 : FVec F S8000000x2 .f32 := broadcastInDim S8000000x2 ![] bcast_S_S8000000x2 main_cst_0
  let main_v6 : IVec S8000000x2 1 := cmpf .olt main_v4 main_v5
  let main_c_1 : IVec S_ 1 := constantI S_ 1 1#1
  let main_v7 : IVec S_ 1 := (fun x v => Host.reduce IntOp.andi x v reducesTo_S8000000x2_S_d0_1 h_S_) main_v6 main_c_1
  let main_v8 : IVec S_ 1 := andi main_v3 main_v7
  let main_v9 : FVec F S1000000x6 .f32 := Host.absf main_arg2
  let main_cst_2 : FVec F S_ .f32 := constant S_ .f32 0x7F800000#32
  let main_v10 : FVec F S1000000x6 .f32 := broadcastInDim S1000000x6 ![] bcast_S_S1000000x6 main_cst_2
  let main_v11 : IVec S1000000x6 1 := cmpf .olt main_v9 main_v10
  let main_c_3 : IVec S_ 1 := constantI S_ 1 1#1
  let main_v12 : IVec S_ 1 := (fun x v => Host.reduce IntOp.andi x v reducesTo_S1000000x6_S_d0_1 h_S_) main_v11 main_c_3
  let main_v13 : IVec S_ 1 := andi main_v8 main_v12
  main_v13
-- ==== Kernel.lean ====
abbrev S1000000x6 : Shape := ⟨2, ![1000000, 6]⟩
abbrev S8000000x2 : Shape := ⟨2, ![8000000, 2]⟩
abbrev S2x8000000 : Shape := ⟨2, ![2, 8000000]⟩
abbrev S1x8000000 : Shape := ⟨2, ![1, 8000000]⟩
abbrev S8000000 : Shape := ⟨1, ![8000000]⟩
abbrev S1000000x1 : Shape := ⟨2, ![1000000, 1]⟩
abbrev S1000000 : Shape := ⟨1, ![1000000]⟩
abbrev S_ : Shape := ⟨0, ![]⟩
abbrev S8000000x1 : Shape := ⟨2, ![8000000, 1]⟩
abbrev S8126464 : Shape := ⟨1, ![8126464]⟩
abbrev S63488x128 : Shape := ⟨2, ![63488, 128]⟩
abbrev S2048x128 : Shape := ⟨2, ![2048, 128]⟩
abbrev S1000000x2 : Shape := ⟨2, ![1000000, 2]⟩
abbrev S6 : Shape := ⟨1, ![6]⟩
abbrev S1x6 : Shape := ⟨2, ![1, 6]⟩
abbrev S1x1 : Shape := ⟨2, ![1, 1]⟩
abbrev S4000x6 : Shape := ⟨2, ![4000, 6]⟩
abbrev S4000x2 : Shape := ⟨2, ![4000, 2]⟩
abbrev S4000x1 : Shape := ⟨2, ![4000, 1]⟩
abbrev S1 : Shape := ⟨1, ![1]⟩
abbrev S4000 : Shape := ⟨1, ![4000]⟩
abbrev S3 : Shape := ⟨1, ![3]⟩

abbrev nBuf : Space → Nat
  | .hbm => 151
  | .vmem => 32
  | .smem => 0
  | _ => 0

abbrev hbmTy0_0 (i : Nat) : BufTy := match i % 128 with
  | 0 => ⟨S1000000x6, .f32⟩
  | 1 => ⟨S8000000x2, .f32⟩
  | 2 => ⟨S1000000x6, .f32⟩
  | 3 => ⟨S2x8000000, .i32⟩
  | 4 => ⟨S1x8000000, .i32⟩
  | 5 => ⟨S8000000, .i32⟩
  | 6 => ⟨S1x8000000, .i32⟩
  | 7 => ⟨S8000000, .i32⟩
  | 8 => ⟨S1000000x1, .f32⟩
  | 9 => ⟨S1000000, .f32⟩
  | 10 => ⟨S1000000x1, .f32⟩
  | 11 => ⟨S1000000, .f32⟩
  | 12 => ⟨S_, .i32⟩
  | 13 => ⟨S8000000, .i32⟩
  | 14 => ⟨S8000000, .i1⟩
  | 15 => ⟨S_, .i32⟩
  | 16 => ⟨S8000000, .i32⟩
  | 17 => ⟨S8000000, .i32⟩
  | 18 => ⟨S8000000, .i32⟩
  | 19 => ⟨S8000000x1, .i32⟩
  | 20 => ⟨S8000000, .f32⟩
  | 21 => ⟨S_, .i32⟩
  | 22 => ⟨S8000000, .i32⟩
  | 23 => ⟨S8000000, .i1⟩
  | 24 => ⟨S_, .i32⟩
  | 25 => ⟨S8000000, .i32⟩
  | 26 => ⟨S8000000, .i32⟩
  | 27 => ⟨S8000000, .i32⟩
  | 28 => ⟨S8000000x1, .i32⟩
  | 29 => ⟨S8000000, .f32⟩
  | 30 => ⟨S_, .i32⟩
  | 31 => ⟨S8000000, .i32⟩
  | 32 => ⟨S8000000, .i1⟩
  | 33 => ⟨S_, .i32⟩
  | 34 => ⟨S8000000, .i32⟩
  | 35 => ⟨S8000000, .i32⟩
  | 36 => ⟨S8000000, .i32⟩
  | 37 => ⟨S8000000x1, .i32⟩
  | 38 => ⟨S8000000, .f32⟩
  | 39 => ⟨S_, .i32⟩
  | 40 => ⟨S8000000, .i32⟩
  | 41 => ⟨S8000000, .i1⟩
  | 42 => ⟨S_, .i32⟩
  | 43 => ⟨S8000000, .i32⟩
  | 44 => ⟨S8000000, .i32⟩
  | 45 => ⟨S8000000, .i32⟩
  | 46 => ⟨S8000000x1, .i32⟩
  | 47 => ⟨S8000000, .f32⟩
  | 48 => ⟨S8000000x1, .f32⟩
  | 49 => ⟨S8000000, .f32⟩
  | 50 => ⟨S8000000x1, .f32⟩
  | 51 => ⟨S8000000, .f32⟩
  | 52 => ⟨S_, .i32⟩
  | 53 => ⟨S_, .f32⟩
  | 54 => ⟨S8126464, .f32⟩
  | 55 => ⟨S63488x128, .f32⟩
  | 56 => ⟨S_, .i32⟩
  | 57 => ⟨S_, .f32⟩
  | 58 => ⟨S8126464, .f32⟩
  | 59 => ⟨S63488x128, .f32⟩
  | 60 => ⟨S_, .i32⟩
  | 61 => ⟨S_, .f32⟩
  | 62 => ⟨S8126464, .f32⟩
  | 63 => ⟨S63488x128, .f32⟩
  | 64 => ⟨S_, .i32⟩
  | 65 => ⟨S_, .f32⟩
  | 66 => ⟨S8126464, .f32⟩
  | 67 => ⟨S63488x128, .f32⟩
  | 68 => ⟨S_, .i32⟩
  | 69 => ⟨S_, .f32⟩
  | 70 => ⟨S8126464, .f32⟩
  | 71 => ⟨S63488x128, .f32⟩
  | 72 => ⟨S_, .i32⟩
  | 73 => ⟨S_, .f32⟩
  | 74 => ⟨S8126464, .f32⟩
  | 75 => ⟨S63488x128, .f32⟩
  | 76 => ⟨S63488x128, .f32⟩
  | 77 => ⟨S63488x128, .f32⟩
  | 78 => ⟨S63488x128, .f32⟩
  | 79 => ⟨S63488x128, .f32⟩
  | 80 => ⟨S8126464, .f32⟩
  | 81 => ⟨S8000000, .f32⟩
  | 82 => ⟨S8126464, .f32⟩
  | 83 => ⟨S8000000, .f32⟩
  | 84 => ⟨S8126464, .f32⟩
  | 85 => ⟨S8000000, .f32⟩
  | 86 => ⟨S8126464, .f32⟩
  | 87 => ⟨S8000000, .f32⟩
  | 88 => ⟨S8000000x1, .f32⟩
  | 89 => ⟨S8000000x1, .f32⟩
  | 90 => ⟨S8000000x2, .f32⟩
  | 91 => ⟨S_, .f32⟩
  | 92 => ⟨S1000000x2, .f32⟩
  | 93 => ⟨S8000000x1, .i32⟩
  | 94 => ⟨S1000000x2, .f32⟩
  | 95 => ⟨S8000000x1, .f32⟩
  | 96 => ⟨S8000000x1, .f32⟩
  | 97 => ⟨S8000000x2, .f32⟩
  | 98 => ⟨S_, .f32⟩
  | 99 => ⟨S1000000x2, .f32⟩
  | 100 => ⟨S8000000x1, .i32⟩
  | 101 => ⟨S1000000x2, .f32⟩
  | 102 => ⟨S1000000x2, .f32⟩
  | 103 => ⟨S_, .f32⟩
  | 104 => ⟨S6, .f32⟩
  | 105 => ⟨S1x6, .f32⟩
  | 106 => ⟨S_, .f32⟩
  | 107 => ⟨S1x6, .f32⟩
  | 108 => ⟨S1x6, .f32⟩
  | 109 => ⟨S_, .i32⟩
  | 110 => ⟨S_, .f32⟩
  | 111 => ⟨S6, .f32⟩
  | 112 => ⟨S1x6, .f32⟩
  | 113 => ⟨S_, .f32⟩
  | 114 => ⟨S1x6, .f32⟩
  | 115 => ⟨S1x6, .f32⟩
  | 116 => ⟨S1000000x6, .f32⟩
  | 117 => ⟨S1000000x6, .f32⟩
  | 118 => ⟨S1000000x6, .f32⟩
  | 119 => ⟨S_, .f32⟩
  | 120 => ⟨S_, .f32⟩
  | 121 => ⟨S_, .f32⟩
  | 122 => ⟨S_, .f32⟩
  | 123 => ⟨S6, .f32⟩
  | 124 => ⟨S1x6, .f32⟩
  | 125 => ⟨S1x6, .f32⟩
  | 126 => ⟨S1x6, .f32⟩
  | 127 => ⟨S_, .f32⟩
  | _ => ⟨S1000000x6, .f32⟩

abbrev hbmTy0_1 (i : Nat) : BufTy := match i % 128 with
  | 0 => ⟨S_, .i1⟩
  | 1 => ⟨S_, .f32⟩
  | 2 => ⟨S_, .f32⟩
  | 3 => ⟨S1x6, .f32⟩
  | 4 => ⟨S1x6, .f32⟩
  | 5 => ⟨S1x6, .f32⟩
  | 6 => ⟨S1x1, .f32⟩
  | 7 => ⟨S1x1, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S1, .f32⟩
  | 22 => ⟨S3, .f32⟩
  | _ => ⟨S1000000x6, .f32⟩

abbrev hbmTy (i : Nat) : BufTy := match i / 128 with
  | 0 => hbmTy0_0 i
  | 1 => hbmTy0_1 i
  | _ => ⟨S1000000x6, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S4000x6, .f32⟩
  | .local _ .vmem, ⟨21, _⟩ => ⟨S4000x6, .f32⟩
  | .local _ .vmem, ⟨22, _⟩ => ⟨S4000x6, .f32⟩
  | .local _ .vmem, ⟨23, _⟩ => ⟨S4000x6, .f32⟩
  | .local _ .vmem, ⟨24, _⟩ => ⟨S4000x2, .f32⟩
  | .local _ .vmem, ⟨25, _⟩ => ⟨S4000x2, .f32⟩
  | .local _ .vmem, ⟨26, _⟩ => ⟨S1x6, .f32⟩
  | .local _ .vmem, ⟨27, _⟩ => ⟨S1x6, .f32⟩
  | .local _ .vmem, ⟨28, _⟩ => ⟨S1x1, .f32⟩
  | .local _ .vmem, ⟨29, _⟩ => ⟨S1x1, .f32⟩
  | .local _ .vmem, ⟨30, _⟩ => ⟨S1x1, .f32⟩
  | .local _ .vmem, ⟨31, _⟩ => ⟨S1x1, .f32⟩
  | _, _ => ⟨S1000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_call0_v0 : Ref sig .tc := ⟨.hbm, 53, rfl⟩
abbrev main_v40 : Ref sig .tc := ⟨.hbm, 54, rfl⟩
abbrev main_v41 : Ref sig .tc := ⟨.hbm, 55, rfl⟩
abbrev main_c_8 : Ref sig .tc := ⟨.hbm, 56, rfl⟩
abbrev main_call1_v0 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_call2_v0 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_call3_v0 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_call4_v0 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_call5_v0 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev main_v52_2 : Ref sig .tc := ⟨.hbm, 78, rfl⟩
abbrev main_v52_3 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_call6_call0_cst : Ref sig .tc := ⟨.hbm, 110, rfl⟩
abbrev main_call6_call0_v0 : Ref sig .tc := ⟨.hbm, 111, rfl⟩
abbrev main_call6_call0_v1 : Ref sig .tc := ⟨.hbm, 112, rfl⟩
abbrev main_call6_call0_cst_0 : Ref sig .tc := ⟨.hbm, 113, rfl⟩
abbrev main_call6_call0_v2 : Ref sig .tc := ⟨.hbm, 114, rfl⟩
abbrev main_call6_call0_v3 : Ref sig .tc := ⟨.hbm, 115, rfl⟩
abbrev main_call6_call0_v4 : Ref sig .tc := ⟨.hbm, 116, rfl⟩
abbrev main_call6_call0_v5 : Ref sig .tc := ⟨.hbm, 117, rfl⟩
abbrev main_call6_call0_v6 : Ref sig .tc := ⟨.hbm, 118, rfl⟩
abbrev main_call6_call0_v7 : Ref sig .tc := ⟨.hbm, 119, rfl⟩
abbrev main_call6_call0_cst_1 : Ref sig .tc := ⟨.hbm, 120, rfl⟩
abbrev main_call6_call0_v8 : Ref sig .tc := ⟨.hbm, 121, rfl⟩
abbrev main_call6_call0_cst_2 : Ref sig .tc := ⟨.hbm, 122, rfl⟩
abbrev main_call6_call0_v9 : Ref sig .tc := ⟨.hbm, 123, rfl⟩
abbrev main_call6_call0_v10 : Ref sig .tc := ⟨.hbm, 124, rfl⟩
abbrev main_call6_call0_v11 : Ref sig .tc := ⟨.hbm, 125, rfl⟩
abbrev main_call6_call0_v12 : Ref sig .tc := ⟨.hbm, 126, rfl⟩
abbrev main_call6_call0_cst_3 : Ref sig .tc := ⟨.hbm, 127, rfl⟩
abbrev main_call6_call0_v13 : Ref sig .tc := ⟨.hbm, 128, rfl⟩
abbrev main_call6_call0_cst_4 : Ref sig .tc := ⟨.hbm, 129, rfl⟩
abbrev main_call6_call0_call0_v0 : Ref sig .tc := ⟨.hbm, 130, rfl⟩
abbrev main_call6_call0_call0_v1 : Ref sig .tc := ⟨.hbm, 131, rfl⟩
abbrev main_call6_v0 : Ref sig .tc := ⟨.hbm, 132, rfl⟩
abbrev main_v78 : Ref sig .tc := ⟨.hbm, 133, rfl⟩
abbrev main_v79_0 : Ref sig .tc := ⟨.hbm, 134, rfl⟩
abbrev main_v79_1 : Ref sig .tc := ⟨.hbm, 135, rfl⟩
abbrev main_v80 : Ref sig .tc := ⟨.hbm, 136, rfl⟩
abbrev main_v81 : Ref sig .tc := ⟨.hbm, 137, rfl⟩
abbrev main_cst_17 : Ref sig .tc := ⟨.hbm, 138, rfl⟩
abbrev main_v82 : Ref sig .tc := ⟨.hbm, 139, rfl⟩
abbrev main_cst_18 : Ref sig .tc := ⟨.hbm, 140, rfl⟩
abbrev main_v83 : Ref sig .tc := ⟨.hbm, 141, rfl⟩
abbrev main_cst_19 : Ref sig .tc := ⟨.hbm, 142, rfl⟩
abbrev main_v84 : Ref sig .tc := ⟨.hbm, 143, rfl⟩
abbrev main_cst_20 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_scratch0 : Ref sig .tc := ⟨.vmem, 30, rfl⟩
abbrev cc1_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def k1_cond2 (i : grid1.Coords) : BitVec 1 :=
  let arg0 : BitVec 32 := BitVec.ofNat 32 (i 0).val
  let c249_i32 : BitVec 32 := 249#32
  let v46 : BitVec 1 := Scalar.cmpi .eq arg0 c249_i32
  let v47 : BitVec 32 := Scalar.extui v46
  let c0_i32_20 : BitVec 32 := 0#32
  let v48 : BitVec 1 := Scalar.cmpi .ne v47 c0_i32_20
  v48

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x6 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x6 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  slices_S1000000x6_S1000000x1_0_0 : S1000000x6.Slices ![0, 0] S1000000x1
  shapeCasts_S1000000x1_S1000000 : S1000000x1.ShapeCasts S1000000
  slices_S1000000x6_S1000000x1_0_1 : S1000000x6.Slices ![0, 1] S1000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  pads_S8000000_S8126464_01264640 : S8000000.Pads (![0] : Fin 1 → Nat) ![126464] ![0] S8126464
  h_S_ : 0 < S_.numel
  shapeCasts_S8126464_S63488x128 : S8126464.ShapeCasts S63488x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S63488x128_S8126464 : S63488x128.ShapeCasts S8126464
  slices_S8126464_S8000000_0 : S8126464.Slices ![0] S8000000
  concatenates_S8000000x1_S8000000x1_S8000000x2_d1 : Shape.Concatenates [S8000000x1, S8000000x1] S8000000x2 1
  bcast_S_S1000000x2 : S_.BroadcastsInDim S1000000x2 (![] : Fin 0 → Fin S1000000x2.rank)
  reducesTo_S1000000x6_S6_d0 : S1000000x6.ReducesTo [0] S6
  bcast_S6_S1x6_1 : S6.BroadcastsInDim S1x6 (![1] : Fin 1 → Fin S1x6.rank)
  bcast_S_S1x6 : S_.BroadcastsInDim S1x6 (![] : Fin 0 → Fin S1x6.rank)
  bcast_S1x6_S1000000x6_0_1 : S1x6.BroadcastsInDim S1000000x6 (![0, 1] : Fin 2 → Fin S1000000x6.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4000x6_S4000x6_0_0 : ∀ a, (![0, 0] : Fin 2 → Nat) a + S4000x6.size a ≤ S4000x6.size a
  h_S4000x6 : 0 < S4000x6.numel
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  inb_S1x6_S1x6_0_0 : ∀ a, (![0, 0] : Fin 2 → Nat) a + S1x6.size a ≤ S1x6.size a
  h_S1x6 : 0 < S1x6.numel
  shapeCasts_S1x6_S1x6 : S1x6.ShapeCasts S1x6
  slices_S4000x2_o0_0_S4000x1 : S4000x2.Slices ![0, 0] S4000x1
  slices_S4000x6_o0_2_S4000x1 : S4000x6.Slices ![0, 2] S4000x1
  slices_S4000x2_o0_1_S4000x1 : S4000x2.Slices ![0, 1] S4000x1
  slices_S4000x6_o0_3_S4000x1 : S4000x6.Slices ![0, 3] S4000x1
  reduces_S4000x1_S1 : S4000x1.Reduces [0] S1
  shapeCasts_S1_S1x1 : S1.ShapeCasts S1x1
  broadcasts_S1x6_S4000x6 : S1x6.Broadcasts S4000x6
  reduces_S4000x6_S4000 : S4000x6.Reduces [1] S4000
  shapeCasts_S4000_S4000x1 : S4000.ShapeCasts S4000x1
  shapeCasts_S1x1_S_ : S1x1.ShapeCasts S_
  bcast_S_S1 : S_.BroadcastsInDim S1 (![] : Fin 0 → Fin S1.rank)
  concatenates_S1_S1_S1_S3_d0 : Shape.Concatenates [S1, S1, S1] S3 0
  gather_S1000000_S8000000x1_S8000000_n_0_n_n_0_1_1_wf : GatherDims.WF S1000000 S8000000x1 S8000000 [] [0] [] [0] [] 1 ![1]
  scatter_S1000000x2_S8000000x1_S8000000x2_1_0_0_1_wf : ScatterDims.WF S1000000x2 S8000000x1 S8000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S63488x128.size a
  hwx0_0 : ∀ i : grid0.Coords, EltTy.bits .f32 = 32 ∨ (Rect.block (s := S63488x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S63488x128.size a
  hwx0_1 : ∀ i : grid0.Coords, EltTy.bits .f32 = 32 ∨ (Rect.block (s := S63488x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S63488x128.size a
  hwx0_2 : ∀ i : grid0.Coords, EltTy.bits .f32 = 32 ∨ (Rect.block (s := S63488x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S63488x128.size a
  hwx0_3 : ∀ i : grid0.Coords, EltTy.bits .f32 = 32 ∨ (Rect.block (s := S63488x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S63488x128.size a
  hwx0_4 : ∀ i : grid0.Coords, EltTy.bits .f32 = 32 ∨ (Rect.block (s := S63488x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S63488x128.size a
  hwx0_5 : ∀ i : grid0.Coords, EltTy.bits .f32 = 32 ∨ (Rect.block (s := S63488x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S63488x128.size a
  hwx0_6 : ∀ i : grid0.Coords, EltTy.bits .f32 = 32 ∨ (Rect.block (s := S63488x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S63488x128.size a
  hwx0_7 : ∀ i : grid0.Coords, EltTy.bits .f32 = 32 ∨ (Rect.block (s := S63488x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S63488x128.size a
  hwx0_8 : ∀ i : grid0.Coords, EltTy.bits .f32 = 32 ∨ (Rect.block (s := S63488x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S63488x128.size a
  hwx0_9 : ∀ i : grid0.Coords, EltTy.bits .f32 = 32 ∨ (Rect.block (s := S63488x128) S2048x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x6.size a ≤ S1000000x6.size a
  hwx1_0 : ∀ i : grid1.Coords, EltTy.bits .f32 = 32 ∨ (Rect.block (s := S1000000x6) S4000x6.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x6.size a ≤ S1000000x6.size a
  hwx1_1 : ∀ i : grid1.Coords, EltTy.bits .f32 = 32 ∨ (Rect.block (s := S1000000x6) S4000x6.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x2.size a ≤ S1000000x2.size a
  hwx1_2 : ∀ i : grid1.Coords, EltTy.bits .f32 = 32 ∨ (Rect.block (s := S1000000x2) S4000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x6.size a ≤ S1x6.size a
  hwx1_3 : ∀ i : grid1.Coords, EltTy.bits .f32 = 32 ∨ (Rect.block (s := S1x6) S1x6.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x6.size a ≤ S1x6.size a
  hwx1_4 : ∀ i : grid1.Coords, EltTy.bits .f32 = 32 ∨ (Rect.block (s := S1x6) S1x6.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000x2_S8000000x1_S8000000x2_1_0_0_1 : ScatterDims S1000000x2 S8000000x1 S8000000x2 where
  updateWindowDims := [1]
  insertedWindowDims := [0]
  scatterDimsToOperandDims := [0]
  indexVectorDim := 1
  wf := scatter_S1000000x2_S8000000x1_S8000000x2_1_0_0_1_wf

abbrev win0_0 : Pipeline.Window sig grid0 :=
  Pipeline.Window.ofSpec (Memref.whole main_v41) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v51) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v52_0) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v52_1) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v52_2) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v52_3) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S4000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S4000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v77) S1x6.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78) S1x6.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v79_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1000000x6 : Shape := ⟨2, ![1000000, 6]⟩
abbrev S8000000x2 : Shape := ⟨2, ![8000000, 2]⟩
abbrev S2x8000000 : Shape := ⟨2, ![2, 8000000]⟩
abbrev S2x16000000 : Shape := ⟨2, ![2, 16000000]⟩
abbrev S16000000x2 : Shape := ⟨2, ![16000000, 2]⟩
abbrev S1x16000000 : Shape := ⟨2, ![1, 16000000]⟩
abbrev S16000000 : Shape := ⟨1, ![16000000]⟩
abbrev S16000000x1 : Shape := ⟨2, ![16000000, 1]⟩
abbrev S_ : Shape := ⟨0, ![]⟩
abbrev S1000000x2 : Shape := ⟨2, ![1000000, 2]⟩
abbrev S1000000x1 : Shape := ⟨2, ![1000000, 1]⟩
abbrev S1000000 : Shape := ⟨1, ![1000000]⟩
abbrev S6 : Shape := ⟨1, ![6]⟩
abbrev S1x6 : Shape := ⟨2, ![1, 6]⟩
abbrev S1 : Shape := ⟨1, ![1]⟩
abbrev S3 : Shape := ⟨1, ![3]⟩

abbrev nBuf : Space → Nat
  | .hbm => 167
  | .vmem => 0
  | .smem => 0
  | _ => 0

abbrev hbmTy0_0 (i : Nat) : BufTy := match i % 128 with
  | 0 => ⟨S1000000x6, .f32⟩
  | 1 => ⟨S8000000x2, .f32⟩
  | 2 => ⟨S1000000x6, .f32⟩
  | 3 => ⟨S2x8000000, .i32⟩
  | 4 => ⟨S2x8000000, .i32⟩
  | 5 => ⟨S2x16000000, .i32⟩
  | 6 => ⟨S16000000x2, .f32⟩
  | 7 => ⟨S1x16000000, .i32⟩
  | 8 => ⟨S16000000, .i32⟩
  | 9 => ⟨S1x16000000, .i32⟩
  | 10 => ⟨S16000000, .i32⟩
  | 11 => ⟨S16000000x1, .f32⟩
  | 12 => ⟨S16000000, .f32⟩
  | 13 => ⟨S16000000x1, .f32⟩
  | 14 => ⟨S16000000, .f32⟩
  | 15 => ⟨S_, .i32⟩
  | 16 => ⟨S16000000, .i32⟩
  | 17 => ⟨S16000000, .i1⟩
  | 18 => ⟨S_, .i32⟩
  | 19 => ⟨S16000000, .i32⟩
  | 20 => ⟨S16000000, .i32⟩
  | 21 => ⟨S16000000, .i32⟩
  | 22 => ⟨S_, .i32⟩
  | 23 => ⟨S16000000, .i32⟩
  | 24 => ⟨S16000000, .i32⟩
  | 25 => ⟨S16000000x1, .i32⟩
  | 26 => ⟨S16000000x1, .i32⟩
  | 27 => ⟨S16000000x2, .i32⟩
  | 28 => ⟨S16000000, .f32⟩
  | 29 => ⟨S_, .i32⟩
  | 30 => ⟨S16000000, .i32⟩
  | 31 => ⟨S16000000, .i1⟩
  | 32 => ⟨S_, .i32⟩
  | 33 => ⟨S16000000, .i32⟩
  | 34 => ⟨S16000000, .i32⟩
  | 35 => ⟨S16000000, .i32⟩
  | 36 => ⟨S_, .i32⟩
  | 37 => ⟨S16000000, .i32⟩
  | 38 => ⟨S16000000, .i32⟩
  | 39 => ⟨S16000000x1, .i32⟩
  | 40 => ⟨S16000000x1, .i32⟩
  | 41 => ⟨S16000000x2, .i32⟩
  | 42 => ⟨S16000000, .f32⟩
  | 43 => ⟨S_, .f32⟩
  | 44 => ⟨S16000000, .f32⟩
  | 45 => ⟨S16000000, .f32⟩
  | 46 => ⟨S_, .i32⟩
  | 47 => ⟨S16000000, .i32⟩
  | 48 => ⟨S16000000, .i1⟩
  | 49 => ⟨S_, .i32⟩
  | 50 => ⟨S16000000, .i32⟩
  | 51 => ⟨S16000000, .i32⟩
  | 52 => ⟨S16000000, .i32⟩
  | 53 => ⟨S_, .i32⟩
  | 54 => ⟨S16000000, .i32⟩
  | 55 => ⟨S16000000, .i32⟩
  | 56 => ⟨S16000000x1, .i32⟩
  | 57 => ⟨S16000000x1, .i32⟩
  | 58 => ⟨S16000000x2, .i32⟩
  | 59 => ⟨S16000000, .f32⟩
  | 60 => ⟨S_, .i32⟩
  | 61 => ⟨S16000000, .i32⟩
  | 62 => ⟨S16000000, .i1⟩
  | 63 => ⟨S_, .i32⟩
  | 64 => ⟨S16000000, .i32⟩
  | 65 => ⟨S16000000, .i32⟩
  | 66 => ⟨S16000000, .i32⟩
  | 67 => ⟨S_, .i32⟩
  | 68 => ⟨S16000000, .i32⟩
  | 69 => ⟨S16000000, .i32⟩
  | 70 => ⟨S16000000x1, .i32⟩
  | 71 => ⟨S16000000x1, .i32⟩
  | 72 => ⟨S16000000x2, .i32⟩
  | 73 => ⟨S16000000, .f32⟩
  | 74 => ⟨S_, .f32⟩
  | 75 => ⟨S16000000, .f32⟩
  | 76 => ⟨S16000000, .f32⟩
  | 77 => ⟨S16000000, .f32⟩
  | 78 => ⟨S16000000, .f32⟩
  | 79 => ⟨S16000000, .f32⟩
  | 80 => ⟨S16000000, .f32⟩
  | 81 => ⟨S16000000, .f32⟩
  | 82 => ⟨S16000000, .f32⟩
  | 83 => ⟨S16000000, .f32⟩
  | 84 => ⟨S16000000, .f32⟩
  | 85 => ⟨S16000000, .f32⟩
  | 86 => ⟨S16000000, .f32⟩
  | 87 => ⟨S16000000, .f32⟩
  | 88 => ⟨S16000000, .f32⟩
  | 89 => ⟨S16000000x1, .f32⟩
  | 90 => ⟨S16000000x1, .f32⟩
  | 91 => ⟨S16000000x2, .f32⟩
  | 92 => ⟨S_, .f32⟩
  | 93 => ⟨S1000000x2, .f32⟩
  | 94 => ⟨S16000000x1, .i32⟩
  | 95 => ⟨S1000000x2, .f32⟩
  | 96 => ⟨S1000000x1, .f32⟩
  | 97 => ⟨S1000000, .f32⟩
  | 98 => ⟨S1000000x1, .f32⟩
  | 99 => ⟨S1000000, .f32⟩
  | 100 => ⟨S1000000, .f32⟩
  | 101 => ⟨S1000000x1, .f32⟩
  | 102 => ⟨S1000000, .f32⟩
  | 103 => ⟨S1000000x1, .f32⟩
  | 104 => ⟨S1000000, .f32⟩
  | 105 => ⟨S1000000, .f32⟩
  | 106 => ⟨S1000000, .f32⟩
  | 107 => ⟨S1000000, .f32⟩
  | 108 => ⟨S1000000, .f32⟩
  | 109 => ⟨S_, .f32⟩
  | 110 => ⟨S_, .f32⟩
  | 111 => ⟨S_, .f32⟩
  | 112 => ⟨S_, .f32⟩
  | 113 => ⟨S_, .f32⟩
  | 114 => ⟨S6, .f32⟩
  | 115 => ⟨S1x6, .f32⟩
  | 116 => ⟨S_, .f32⟩
  | 117 => ⟨S1x6, .f32⟩
  | 118 => ⟨S1x6, .f32⟩
  | 119 => ⟨S_, .i32⟩
  | 120 => ⟨S_, .f32⟩
  | 121 => ⟨S6, .f32⟩
  | 122 => ⟨S1x6, .f32⟩
  | 123 => ⟨S_, .f32⟩
  | 124 => ⟨S1x6, .f32⟩
  | 125 => ⟨S1x6, .f32⟩
  | 126 => ⟨S1000000x6, .f32⟩
  | 127 => ⟨S1000000x6, .f32⟩
  | _ => ⟨S1000000x6, .f32⟩

abbrev hbmTy0_1 (i : Nat) : BufTy := match i % 128 with
  | 0 => ⟨S1000000x6, .f32⟩
  | 1 => ⟨S_, .f32⟩
  | 2 => ⟨S_, .f32⟩
  | 3 => ⟨S_, .f32⟩
  | 4 => ⟨S_, .f32⟩
  | 5 => ⟨S6, .f32⟩
  | 6 => ⟨S1x6, .f32⟩
  | 7 => ⟨S1x6, .f32⟩
  | 8 => ⟨S1x6, .f32⟩
  | 9 => ⟨S_, .f32⟩
  | 10 => ⟨S_, .i1⟩
  | 11 => ⟨S_, .f32⟩
  | 12 => ⟨S_, .f32⟩
  | 13 => ⟨S1x6, .f32⟩
  | 14 => ⟨S1x6, .f32⟩
  | 15 => ⟨S1x6, .f32⟩
  | 16 => ⟨S1000000x6, .f32⟩
  | 17 => ⟨S1000000x6, .f32⟩
  | 18 => ⟨S1000000x6, .f32⟩
  | 19 => ⟨S1000000x6, .f32⟩
  | 20 => ⟨S1000000x6, .f32⟩
  | 21 => ⟨S1000000x6, .f32⟩
  | 22 => ⟨S1000000x6, .f32⟩
  | 23 => ⟨S1000000x6, .f32⟩
  | 24 => ⟨S1000000x6, .f32⟩
  | 25 => ⟨S1000000x6, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1, .f32⟩
  | 36 => ⟨S1, .f32⟩
  | 37 => ⟨S1, .f32⟩
  | 38 => ⟨S3, .f32⟩
  | _ => ⟨S1000000x6, .f32⟩

abbrev hbmTy (i : Nat) : BufTy := match i / 128 with
  | 0 => hbmTy0_0 i
  | 1 => hbmTy0_1 i
  | _ => ⟨S1000000x6, .f32⟩

abbrev bufTy : (tb : Table) → Fin (tcTables nBuf tb) → BufTy
  | .hbm, ⟨i, _⟩ => hbmTy i
  | _, _ => ⟨S1000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_12 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_13 : Ref sig .tc := ⟨.hbm, 109, rfl⟩
abbrev main_v90 : Ref sig .tc := ⟨.hbm, 110, rfl⟩
abbrev main_cst_14 : Ref sig .tc := ⟨.hbm, 111, rfl⟩
abbrev main_v91 : Ref sig .tc := ⟨.hbm, 112, rfl⟩
abbrev main_cst_15 : Ref sig .tc := ⟨.hbm, 113, rfl⟩
abbrev main_v92 : Ref sig .tc := ⟨.hbm, 114, rfl⟩
abbrev main_v93 : Ref sig .tc := ⟨.hbm, 115, rfl⟩
abbrev main_cst_16 : Ref sig .tc := ⟨.hbm, 116, rfl⟩
abbrev main_v94 : Ref sig .tc := ⟨.hbm, 117, rfl⟩
abbrev main_v95 : Ref sig .tc := ⟨.hbm, 118, rfl⟩
abbrev main_c_17 : Ref sig .tc := ⟨.hbm, 119, rfl⟩
abbrev main_call0_call0_cst : Ref sig .tc := ⟨.hbm, 120, rfl⟩
abbrev main_call0_call0_v0 : Ref sig .tc := ⟨.hbm, 121, rfl⟩
abbrev main_call0_call0_v1 : Ref sig .tc := ⟨.hbm, 122, rfl⟩
abbrev main_call0_call0_cst_0 : Ref sig .tc := ⟨.hbm, 123, rfl⟩
abbrev main_call0_call0_v2 : Ref sig .tc := ⟨.hbm, 124, rfl⟩
abbrev main_call0_call0_v3 : Ref sig .tc := ⟨.hbm, 125, rfl⟩
abbrev main_call0_call0_v4 : Ref sig .tc := ⟨.hbm, 126, rfl⟩
abbrev main_call0_call0_v5 : Ref sig .tc := ⟨.hbm, 127, rfl⟩
abbrev main_call0_call0_v6 : Ref sig .tc := ⟨.hbm, 128, rfl⟩
abbrev main_call0_call0_v7 : Ref sig .tc := ⟨.hbm, 129, rfl⟩
abbrev main_call0_call0_cst_1 : Ref sig .tc := ⟨.hbm, 130, rfl⟩
abbrev main_call0_call0_v8 : Ref sig .tc := ⟨.hbm, 131, rfl⟩
abbrev main_call0_call0_cst_2 : Ref sig .tc := ⟨.hbm, 132, rfl⟩
abbrev main_call0_call0_v9 : Ref sig .tc := ⟨.hbm, 133, rfl⟩
abbrev main_call0_call0_v10 : Ref sig .tc := ⟨.hbm, 134, rfl⟩
abbrev main_call0_call0_v11 : Ref sig .tc := ⟨.hbm, 135, rfl⟩
abbrev main_call0_call0_v12 : Ref sig .tc := ⟨.hbm, 136, rfl⟩
abbrev main_call0_call0_cst_3 : Ref sig .tc := ⟨.hbm, 137, rfl⟩
abbrev main_call0_call0_v13 : Ref sig .tc := ⟨.hbm, 138, rfl⟩
abbrev main_call0_call0_cst_4 : Ref sig .tc := ⟨.hbm, 139, rfl⟩
abbrev main_call0_call0_call0_v0 : Ref sig .tc := ⟨.hbm, 140, rfl⟩
abbrev main_call0_call0_call0_v1 : Ref sig .tc := ⟨.hbm, 141, rfl⟩
abbrev main_call0_v0 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_18 : Ref sig .tc := ⟨.hbm, 154, rfl⟩
abbrev main_v107 : Ref sig .tc := ⟨.hbm, 155, rfl⟩
abbrev main_cst_19 : Ref sig .tc := ⟨.hbm, 156, rfl⟩
abbrev main_v108 : Ref sig .tc := ⟨.hbm, 157, rfl⟩
abbrev main_cst_20 : Ref sig .tc := ⟨.hbm, 158, rfl⟩
abbrev main_v109 : Ref sig .tc := ⟨.hbm, 159, rfl⟩
abbrev main_cst_21 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩

abbrev nD : Nat := 1
abbrev τ : Topo := Topo.v7x

variable {F : FTy → Type} [FloatOps F]

class Facts₀ : Prop where
  concatenates_S2x8000000_S2x8000000_S2x16000000_d1 : Shape.Concatenates [S2x8000000, S2x8000000] S2x16000000 1
  concatenates_S8000000x2_S8000000x2_S16000000x2_d0 : Shape.Concatenates [S8000000x2, S8000000x2] S16000000x2 0
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  slices_S16000000x2_S16000000x1_0_0 : S16000000x2.Slices ![0, 0] S16000000x1
  shapeCasts_S16000000x1_S16000000 : S16000000x1.ShapeCasts S16000000
  slices_S16000000x2_S16000000x1_0_1 : S16000000x2.Slices ![0, 1] S16000000x1
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x1_S16000000x1_S16000000x2_d1 : Shape.Concatenates [S16000000x1, S16000000x1] S16000000x2 1
  bcast_S_S1000000x2 : S_.BroadcastsInDim S1000000x2 (![] : Fin 0 → Fin S1000000x2.rank)
  slices_S1000000x2_S1000000x1_0_0 : S1000000x2.Slices ![0, 0] S1000000x1
  shapeCasts_S1000000x1_S1000000 : S1000000x1.ShapeCasts S1000000
  slices_S1000000x6_S1000000x1_0_2 : S1000000x6.Slices ![0, 2] S1000000x1
  slices_S1000000x2_S1000000x1_0_1 : S1000000x2.Slices ![0, 1] S1000000x1
  slices_S1000000x6_S1000000x1_0_3 : S1000000x6.Slices ![0, 3] S1000000x1
  reducesTo_S1000000_S_d0 : S1000000.ReducesTo [0] S_
  h_S_ : 0 < S_.numel
  reducesTo_S1000000x6_S6_d0 : S1000000x6.ReducesTo [0] S6
  bcast_S6_S1x6_1 : S6.BroadcastsInDim S1x6 (![1] : Fin 1 → Fin S1x6.rank)
  bcast_S_S1x6 : S_.BroadcastsInDim S1x6 (![] : Fin 0 → Fin S1x6.rank)
  bcast_S1x6_S1000000x6_0_1 : S1x6.BroadcastsInDim S1000000x6 (![0, 1] : Fin 2 → Fin S1000000x6.rank)
  reducesTo_S1000000x6_S_d0_1 : S1000000x6.ReducesTo [0, 1] S_
  bcast_S_S1 : S_.BroadcastsInDim S1 (![] : Fin 0 → Fin S1.rank)
  concatenates_S1_S1_S1_S3_d0 : Shape.Concatenates [S1, S1, S1] S3 0
  gather_S1000000x6_S16000000x2_S16000000_n_01_n_n_01_1_11_wf : GatherDims.WF S1000000x6 S16000000x2 S16000000 [] [0, 1] [] [0, 1] [] 1 ![1, 1]
  scatter_S1000000x2_S16000000x1_S16000000x2_1_0_0_1_wf : ScatterDims.WF S1000000x2 S16000000x1 S16000000x2 [1] [0] [0] 1

variable [Facts₀]

def gather_S1000000x6_S16000000x2_S16000000_n_01_n_n_01_1_11 : GatherDims S1000000x6 S16000000x2 S16000000 where
  offsetDims := []
  collapsedSliceDims := [0, 1]
  operandBatchingDims := []
  startIndicesBatchingDims := []
  startIndexMap := [0, 1]
  indexVectorDim := 1
  sliceSizes := ![1, 1]
  wf := gather_S1000000x6_S16000000x2_S16000000_n_01_n_n_01_1_11_wf
def scatter_S1000000x2_S16000000x1_S16000000x2_1_0_0_1 : ScatterDims S1000000x2 S16000000x1 S16000000x2 where
  updateWindowDims := [1]
  insertedWindowDims := [0]
  scatterDimsToOperandDims := [0]
  indexVectorDim := 1
  wf := scatter_S1000000x2_S16000000x1_S16000000x2_1_0_0_1_wf

class Facts : Prop extends Facts₀ where

variable [Facts]
-- ==== Proof.EdgeFrameK.lean ====
import proofs.«168346_j773094113349_1_alg».proof.Proof.Gen.Kernel.Launch
import proofs.«168346_j773094113349_1_alg».proof.Proof.Gen.Kernel.Skeleton
import proofs.«168346_j773094113349_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block at point `t` of its array, the arrays at `V`
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S2048x128 := Rect.unit (s := S2048x128) ![0, 0] S2048x128.size inb_S2048x128_S2048x128_0_0

section
variable (x0 x1 x2 x3 x4 x5 : Vec F S2048x128 .f32)

def out0_6 : Vec F S2048x128 .f32 := View.canon [⟨r0, k0_pay11 (View.ld x0 r0) (View.ld x1 r0) (View.ld x2 r0) (View.ld x3 r0) (View.ld x4 r0) (View.ld x5 r0)⟩]
def out0_7 : Vec F S2048x128 .f32 := View.canon [⟨r0, k0_pay12 (View.ld x0 r0) (View.ld x1 r0) (View.ld x2 r0) (View.ld x3 r0) (View.ld x4 r0) (View.ld x5 r0)⟩]
def out0_8 : Vec F S2048x128 .f32 := View.canon [⟨r0, k0_pay13 (View.ld x0 r0) (View.ld x1 r0) (View.ld x2 r0) (View.ld x3 r0) (View.ld x4 r0) (View.ld x5 r0)⟩]
def out0_9 : Vec F S2048x128 .f32 := View.canon [⟨r0, k0_pay14 (View.ld x0 r0) (View.ld x1 r0) (View.ld x2 r0) (View.ld x3 r0) (View.ld x4 r0) (View.ld x5 r0)⟩]

end

abbrev owns0 (c : Dev nD) (a : Memref sig .tc .vmem S2048x128 .f32) (x : Vec F S2048x128 .f32) : sProp 𝕄 :=
  owns (c : Thread nD τ) a fullShare x

set_option maxHeartbeats 4000000 in
-- the body: the six inputs unchanged, each output at its payload of them
theorem sound_kernel0 (c : Dev nD) {i : grid0.Coords} {a0 a1 a2 a3 a4 a5 a6 a7 a8 a9 : Memref sig .tc .vmem S2048x128 .f32}
    {h0 : a0.IsWhole} {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole}
    (x0 x1 x2 x3 x4 x5 : Vec F S2048x128 .f32) {g0 g1 g2 g3 g4 g5 g6 g7 g8 g9 : Vec F S2048x128 .f32 → Vec F S2048x128 .f32}
    (e0 : ∀ d, g0 d = x0) (e1 : ∀ d, g1 d = x1) (e2 : ∀ d, g2 d = x2) (e3 : ∀ d, g3 d = x3) (e4 : ∀ d, g4 d = x4) (e5 : ∀ d, g5 d = x5) {P Q : sProp 𝕄} :
    iprop(P ∗ Q ∗ (∃ d, owns0 c a0 (g0 d)) ∗ (∃ d, owns0 c a1 (g1 d)) ∗ (∃ d, owns0 c a2 (g2 d)) ∗ (∃ d, owns0 c a3 (g3 d)) ∗ (∃ d, owns0 c a4 (g4 d)) ∗ (∃ d, owns0 c a5 (g5 d)) ∗ (∃ d, owns0 c a6 (g6 d)) ∗ (∃ d, owns0 c a7 (g7 d)) ∗ (∃ d, owns0 c a8 (g8 d)) ∗ (∃ d, owns0 c a9 (g9 d)))
      ⊢ wp frame (wpE (defs₀ (F := F)) Variants.none c none) Set.univ (cc0__edge_kernel i a0 h0 a1 h1 a2 h2 a3 h3 a4 h4 a5 h5 a6 h6 a7 h7 a8 h8 a9 h9) fun _ =>
        iprop(P ∗ Q ∗ owns0 c a0 x0 ∗ owns0 c a1 x1 ∗ owns0 c a2 x2 ∗ owns0 c a3 x3 ∗ owns0 c a4 x4 ∗ owns0 c a5 x5
          ∗ owns0 c a6 (out0_6 x0 x1 x2 x3 x4 x5) ∗ owns0 c a7 (out0_7 x0 x1 x2 x3 x4 x5) ∗ owns0 c a8 (out0_8 x0 x1 x2 x3 x4 x5) ∗ owns0 c a9 (out0_9 x0 x1 x2 x3 x4 x5)) := by
  simp only [cc0__edge_kernel_eq_skeleton, e0, e1, e2, e3, e4, e5]; unfold cc0__edge_kernel_skel owns0 owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩, ⟨%d7, %f7, -, H7⟩, ⟨%d8, %f8, -, H8⟩, ⟨%d9, %f9, -, H9⟩⟩
  subst hf0; subst hf1; subst hf2; subst hf3; subst hf4; subst hf5
  sl_exec
  sl_step
  isplitl [HP]; · iexact HP
  isplitl [HQ]; · iexact HQ
  isplitl [H0]; swap; isplitl [H1]; swap; isplitl [H2]; swap; isplitl [H3]; swap; isplitl [H4]; swap; isplitl [H5]; swap; isplitl [H6]; swap; isplitl [H7]; swap; isplitl [H8]; swap
  all_goals (iexists _; isplitr; swap; iassumption; ipureintro; first | exact View.read_writes_eq_canon _ _ _ (View.cover_of_tiled _ S2048x128.size (by rfl)) | rfl)

-- after the body an input window holds its block and an output its payload of the six blocks
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := Pipeline.ΦA spec0 c
  q _ := fullShare
  owed _ := 0

section
variable (c : Dev nD) (t : Fin cfg0.N)

theorem after0_6 : (dat0 V c).after 6 t = out0_6 (iblk0 V c 0 t) (iblk0 V c 1 t) (iblk0 V c 2 t) (iblk0 V c 3 t) (iblk0 V c 4 t) (iblk0 V c 5 t) := by dsimp only [dat0]
theorem after0_7 : (dat0 V c).after 7 t = out0_7 (iblk0 V c 0 t) (iblk0 V c 1 t) (iblk0 V c 2 t) (iblk0 V c 3 t) (iblk0 V c 4 t) (iblk0 V c 5 t) := by dsimp only [dat0]
theorem after0_8 : (dat0 V c).after 8 t = out0_8 (iblk0 V c 0 t) (iblk0 V c 1 t) (iblk0 V c 2 t) (iblk0 V c 3 t) (iblk0 V c 4 t) (iblk0 V c 5 t) := by dsimp only [dat0]
theorem after0_9 : (dat0 V c).after 9 t = out0_9 (iblk0 V c 0 t) (iblk0 V c 1 t) (iblk0 V c 2 t) (iblk0 V c 3 t) (iblk0 V c 4 t) (iblk0 V c 5 t) := by dsimp only [dat0]

end

theorem body_obligation0 (c : Dev nD) : BodyObligation (dat0 (F := F) V c) (defs₀ (F := F)) Variants.none () Set.univ := fun t => by
  rw [bigSep_W0, bigSep_W0]
  show _ ⊢ wp frame _ _ (bodyAt0 t) _
  rw [after0_6, after0_7, after0_8, after0_9]
  have b := (dat0 V c).before_fetched
  exact sound_kernel0 c (iblk0 V c 0 t) (iblk0 V c 1 t) (iblk0 V c 2 t) (iblk0 V c 3 t) (iblk0 V c 4 t) (iblk0 V c 5 t) (b 0 t (fetch0_0 t)) (b 1 t (fetch0_1 t)) (b 2 t (fetch0_2 t)) (b 3 t (fetch0_3 t)) (b 4 t (fetch0_4 t)) (b 5 t (fetch0_5 t))

end Cert.Kernel.Hand
-- ==== Proof.FoldAK.lean ====
import proofs.«168346_j773094113349_1_alg».proof.Proof.EdgeFrameK
import proofs.«168346_j773094113349_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ)

-- the unscoped buffers at each boundary of @main: the launch memory, then each host stretch applied in turn
abbrev W0 : Dev nD → Valuation τ sig (Elt F) := fun c b => m (c, b)
abbrev W1 (c : Dev nD) := StableHlo.after hostOps0 (W0 m c)
abbrev W2 (c : Dev nD) := StableHlo.after hostOps0_1 (W1 m c)
abbrev W3 (c : Dev nD) := StableHlo.after hostOps0_2 (W2 m c)
abbrev W4 (c : Dev nD) := StableHlo.after hostOps0_3 (W3 m c)
abbrev W5 (c : Dev nD) := StableHlo.after hostOps0_4 (W4 m c)
abbrev W6 (c : Dev nD) := StableHlo.after hostOps0_5 (W5 m c)
abbrev W7 (c : Dev nD) := StableHlo.after hostOps0_6 (W6 m c)
abbrev W8 (c : Dev nD) := StableHlo.after hostOps0_7 (W7 m c)
abbrev W9 (c : Dev nD) := StableHlo.after hostOps0_8 (W8 m c)
abbrev W10 (c : Dev nD) := StableHlo.after hostOps0_9 (W9 m c)
abbrev W11 (c : Dev nD) := StableHlo.after hostOps0_10 (W10 m c)
abbrev W12 (c : Dev nD) := StableHlo.after hostOps0_11 (W11 m c)
abbrev W13 (c : Dev nD) := StableHlo.after hostOps0_12 (W12 m c)
abbrev U13 (c : Dev nD) (b : Ref sig .tc) : Buf (Elt F) ((c : Thread nD τ).loc b) := W13 m c b
-- after the edge region: its arrays at their final contents, every other buffer as entered
def W14 (c : Dev nD) : Valuation τ sig (Elt F) :=
  Pipeline.withArrays spec0 c (W13 m c) fun w => (dat0 (U13 m) c).arrAt w cfg0.N
theorem W14_arr (c : Dev nD) (w : Fin cfg0.W) :
    W14 m c (Proc.devRef .tc (Pipeline.arrRef spec0 w)) = (dat0 (U13 m) c).arrAt w cfg0.N :=
  Pipeline.withArrays_arr spec0 launch0.win.arr_inj c _ _ w
theorem W14_of_ne (c : Dev nD) (b : Ref sig .tc) (hb : ∀ w, Pipeline.arrRef spec0 w ≠ b) :
    W14 m c (Proc.devRef .tc b) = W13 m c (Proc.devRef .tc b) :=
  Pipeline.withArrays_of_ne spec0 c _ _ b hb
abbrev U14 (c : Dev nD) (b : Ref sig .tc) : Buf (Elt F) ((c : Thread nD τ).loc b) := W14 m c b
theorem hrest0 (c : Dev nD) (b : Ref sig .tc) (hb : b ∉ Finset.univ.image (Pipeline.arrRef spec0)) : U14 m c b = U13 m c b :=
  W14_of_ne m c b fun w e => hb (Finset.mem_image.mpr ⟨w, Finset.mem_univ _, e⟩)
abbrev W15 (c : Dev nD) := StableHlo.after hostOps1 (W14 m c)
abbrev W16 (c : Dev nD) := StableHlo.after hostOps1_1 (W15 m c)
abbrev U16 (c : Dev nD) (b : Ref sig .tc) : Buf (Elt F) ((c : Thread nD τ).loc b) := W16 m c b

end Cert.Kernel.Hand

end
-- ==== Proof.NodeRunsK.lean ====
import proofs.«168346_j773094113349_1_alg».proof.Proof.Gen.Kernel.Launch
import proofs.«168346_j773094113349_1_alg».proof.Proof.Gen.Kernel.Skeleton
import proofs.«168346_j773094113349_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (UR sig nD τ) ℕ cfg1 c)
theorem before1_0_of (hA : dat.A 0 = V c (Pipeline.arrRef spec1 0)) (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter, iblk1, ← hA]; rfl) t d).trans (by rw [iblk1, ← hA]; rfl)
theorem before1_1_of (hA : dat.A 1 = V c (Pipeline.arrRef spec1 1)) (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter, iblk1, ← hA]; rfl) t d).trans (by rw [iblk1, ← hA]; rfl)
theorem before1_2_of (hA : dat.A 2 = V c (Pipeline.arrRef spec1 2)) (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter, iblk1, ← hA]; rfl) t d).trans (by rw [iblk1, ← hA]; rfl)
theorem before1_3_of (hA : dat.A 3 = V c (Pipeline.arrRef spec1 3)) (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter, iblk1, ← hA]; rfl) t d).trans (by rw [iblk1, ← hA]; rfl)
theorem before1_4_of (hA : dat.A 4 = V c (Pipeline.arrRef spec1 4)) (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter, iblk1, ← hA]; rfl) t d).trans (by rw [iblk1, ← hA]; rfl)
end

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel

abbrev cond1_1 (i : grid1.Coords) : Prop := k1_cond2 i = 1#1
theorem hcond1_1 : ∀ t : Fin cfg1.N, cond1_1 (grid1.coords t) ↔ t.val = 249 := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem outIdle1 : ∀ w : Fin cfg1.W, 5 ≤ w.val → ∀ t : Fin cfg1.N, ¬cond1_1 (grid1.coords t) → cfg1.idle w (grid1.coords t) = true ∧ (cfg1.win w).flush t = false := by decide +kernel
theorem outLive1 : ∀ w : Fin cfg1.W, 5 ≤ w.val → ∀ t : Fin cfg1.N, cond1_1 (grid1.coords t) → cfg1.idle w (grid1.coords t) = false := by decide +kernel

abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view
section
variable (t : Fin cfg1.N)
abbrev ms1_0 : Memref sig .tc .vmem S4000x6 .f32 := win1_0.stage (cfg1.slots t 0)
abbrev hs1_0 : (ms1_0 t).IsWhole := hstage1_0 ((cfg1.slots t 0).cast nbuf1_0)
abbrev ms1_1 : Memref sig .tc .vmem S4000x6 .f32 := win1_1.stage (cfg1.slots t 1)
abbrev hs1_1 : (ms1_1 t).IsWhole := hstage1_1 ((cfg1.slots t 1).cast nbuf1_1)
abbrev ms1_2 : Memref sig .tc .vmem S4000x2 .f32 := win1_2.stage (cfg1.slots t 2)
abbrev hs1_2 : (ms1_2 t).IsWhole := hstage1_2 ((cfg1.slots t 2).cast nbuf1_2)
abbrev ms1_3 : Memref sig .tc .vmem S1x6 .f32 := win1_3.stage (cfg1.slots t 3)
abbrev hs1_3 : (ms1_3 t).IsWhole := hstage1_3 ((cfg1.slots t 3).cast nbuf1_3)
abbrev ms1_4 : Memref sig .tc .vmem S1x6 .f32 := win1_4.stage (cfg1.slots t 4)
abbrev hs1_4 : (ms1_4 t).IsWhole := hstage1_4 ((cfg1.slots t 4).cast nbuf1_4)
abbrev ms1_5 : Memref sig .tc .vmem S1x1 .f32 := win1_5.stage (cfg1.slots t 5)
abbrev hs1_5 : (ms1_5 t).IsWhole := hstage1_5 ((cfg1.slots t 5).cast nbuf1_5)
abbrev ms1_6 : Memref sig .tc .vmem S1x1 .f32 := win1_6.stage (cfg1.slots t 6)
abbrev hs1_6 : (ms1_6 t).IsWhole := hstage1_6 ((cfg1.slots t 6).cast nbuf1_6)
end
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view

abbrev Rest1 (c : Dev nD) : sProp 𝕄 :=
  Pipeline.scopedRestBut spec1 c [cc1_scratch0, cc1_scratch1]

theorem PhiA1_eq (c : Dev nD) :
    (Pipeline.ΦA spec1 c : sProp 𝕄)
      = iprop(iprop(iprop((∃ d, owns c scM1_0 fullShare d) ∗ (∃ d, owns c scM1_1 fullShare d)) ∗ Rest1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.Kernel.Hand

end
-- ==== Proof.NodeRunAK.lean ====
import proofs.«168346_j773094113349_1_alg».proof.Proof.NodeRunsK

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Reading through a whole memref is a bijection, so owning it at `X` fixes its raw contents. -/
theorem owns_eq_unread (c : Dev nD) {sp : Space} {sh : Shape} {e : EltTy} {m : Memref sig .tc sp sh e} (h : m.IsWhole) (X : sh.Idx → Elt F e) :
    (owns c m fullShare X : sProp 𝕄) = (m.view.loc c ↦[m.view.set]{fullShare} h.unread X) := by
  unfold owns
  refine BI.equiv_iff.mp ⟨?_, ?_⟩ <;> show (_ : sProp 𝕄) ⊢ _
  · iintro ⟨%f, %hf, H⟩; obtain rfl := h.eq_unread hf; iexact H
  · iintro H; iexists _; isplitr; · ipureintro; exact h.read_unread _
    iexact H

variable (c : Dev nD) (i : grid1.Coords) (arg1 : Memref sig .tc .vmem S4000x6 .f32) (harg1 : arg1.IsWhole) (arg2 : Memref sig .tc .vmem S4000x6 .f32) (harg2 : arg2.IsWhole) (arg3 : Memref sig .tc .vmem S4000x2 .f32) (harg3 : arg3.IsWhole) (arg4 : Memref sig .tc .vmem S1x6 .f32) (harg4 : arg4.IsWhole) (arg5 : Memref sig .tc .vmem S1x6 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)

/-- The five inputs' memrefs at their contents: what every run is handed and hands back unchanged. -/
def ins1 (x0 x1 : Vec F S4000x6 .f32) (x2 : Vec F S4000x2 .f32) (x3 x4 : Vec F S1x6 .f32) : sProp 𝕄 :=
  iprop(owns c arg1 fullShare x0 ∗ owns c arg2 fullShare x1 ∗ owns c arg3 fullShare x2 ∗ owns c arg4 fullShare x3 ∗ owns c arg5 fullShare x4)

/-- The run at the first point: the accumulators are zeroed, then the block's two sums are added; the outputs are untouched. -/
def kernelRun1_A (hc0 : cond1_0 i) (hc1 : ¬cond1_1 i) (x0 x1 : Vec F S4000x6 .f32) (x2 : Vec F S4000x2 .f32) (x3 x4 : Vec F S1x6 .f32) :
    Σ' (L5 L6 LS0 : List (View.Piece (Elt F) S1x1 .f32)), { LS1 : List (View.Piece (Elt F) S1x1 .f32) //
      ∀ (xi5 xi6 : Vec F S1x1 .f32) (E : Set ℕ) (K : PUnit → sProp 𝕄),
        iprop(ins1 c arg1 arg2 arg3 arg4 arg5 x0 x1 x2 x3 x4 ∗ owns c arg6 fullShare xi5 ∗ owns c arg7 fullShare xi6 ∗ (∃ d, owns c arg8 fullShare d) ∗ (∃ d, owns c arg9 fullShare d)
            ∗ (iprop(ins1 c arg1 arg2 arg3 arg4 arg5 x0 x1 x2 x3 x4 ∗ owns c arg6 fullShare xi5 ∗ owns c arg7 fullShare xi6 ∗ (∃ f, arg8.view.loc c ↦[arg8.view.set]{fullShare} arg8.view.writes (Elt F) f LS0) ∗ (∃ f, arg9.view.loc c ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨[], [], ?_, ?_, fun xi5 xi6 E K => ?run⟩
  case run =>
    simp only [ins1, owns_eq_unread, *]
    simp only [cc1__node_kernel_eq_skeleton]; unfold cc1__node_kernel_skel
    simp only [k1_part1_eq_skeleton]
    iintro ⟨⟨H0, H1, H2, H3, H4⟩, H5, H6, ⟨%d0, HS0⟩, ⟨%d1, HS1⟩, Hk⟩
    sl_exec (disch := first | exact hc0 | exact hc1)
    sl_step
    iapply Hk
    iframe
    isplitl [HS0]; · iexists _; iexact HS0
    iexists _; iexact HS1

/-- The run at a middle point: the block's two sums are added to the accumulators; the outputs are untouched. -/
def kernelRun1_B (hc0 : ¬cond1_0 i) (hc1 : ¬cond1_1 i) (x0 x1 : Vec F S4000x6 .f32) (x2 : Vec F S4000x2 .f32) (x3 x4 : Vec F S1x6 .f32) (xs0 xs1 : Vec F S1x1 .f32) :
    Σ' (L5 L6 LS0 : List (View.Piece (Elt F) S1x1 .f32)), { LS1 : List (View.Piece (Elt F) S1x1 .f32) //
      ∀ (xi5 xi6 : Vec F S1x1 .f32) (E : Set ℕ) (K : PUnit → sProp 𝕄),
        iprop(ins1 c arg1 arg2 arg3 arg4 arg5 x0 x1 x2 x3 x4 ∗ owns c arg6 fullShare xi5 ∗ owns c arg7 fullShare xi6 ∗ owns c arg8 fullShare xs0 ∗ owns c arg9 fullShare xs1
            ∗ (iprop(ins1 c arg1 arg2 arg3 arg4 arg5 x0 x1 x2 x3 x4 ∗ owns c arg6 fullShare xi5 ∗ owns c arg7 fullShare xi6 ∗ (∃ f, arg8.view.loc c ↦[arg8.view.set]{fullShare} arg8.view.writes (Elt F) f LS0) ∗ (∃ f, arg9.view.loc c ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨[], [], ?_, ?_, fun xi5 xi6 E K => ?run⟩
  case run =>
    simp only [ins1, owns_eq_unread, *]
    simp only [cc1__node_kernel_eq_skeleton]; unfold cc1__node_kernel_skel
    simp only [k1_part1_eq_skeleton]
    iintro ⟨⟨H0, H1, H2, H3, H4⟩, H5, H6, HS0, HS1, Hk⟩
    sl_exec (disch := first | exact hc0 | exact hc1)
    sl_step
    iapply Hk
    iframe
    isplitl [HS0]; · iexists _; iexact HS0
    iexists _; iexact HS1

/-- The run at the last point: the sums are added, then the accumulators are stored whole into the two outputs. -/
def kernelRun1_C (hc0 : ¬cond1_0 i) (hc1 : cond1_1 i) (x0 x1 : Vec F S4000x6 .f32) (x2 : Vec F S4000x2 .f32) (x3 x4 : Vec F S1x6 .f32) (xs0 xs1 : Vec F S1x1 .f32) :
    Σ' (L5 L6 LS0 : List (View.Piece (Elt F) S1x1 .f32)), { LS1 : List (View.Piece (Elt F) S1x1 .f32) //
      ∀ (E : Set ℕ) (K : PUnit → sProp 𝕄),
        iprop(ins1 c arg1 arg2 arg3 arg4 arg5 x0 x1 x2 x3 x4 ∗ (∃ d, owns c arg6 fullShare d) ∗ (∃ d, owns c arg7 fullShare d) ∗ owns c arg8 fullShare xs0 ∗ owns c arg9 fullShare xs1
            ∗ (iprop(ins1 c arg1 arg2 arg3 arg4 arg5 x0 x1 x2 x3 x4 ∗ (∃ f, arg6.view.loc c ↦[arg6.view.set]{fullShare} arg6.view.writes (Elt F) f L5) ∗ (∃ f, arg7.view.loc c ↦[arg7.view.set]{fullShare} arg7.view.writes (Elt F) f L6) ∗ (∃ f, arg8.view.loc c ↦[arg8.view.set]{fullShare} arg8.view.writes (Elt F) f LS0) ∗ (∃ f, arg9.view.loc c ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [ins1, owns_eq_unread, *]
    simp only [cc1__node_kernel_eq_skeleton]; unfold cc1__node_kernel_skel
    simp only [k1_part1_eq_skeleton]
    iintro ⟨⟨H0, H1, H2, H3, H4⟩, ⟨%d5, H5⟩, ⟨%d6, H6⟩, HS0, HS1, Hk⟩
    sl_exec (disch := first | exact hc0 | exact hc1)
    sl_step
    iapply Hk
    iframe
    isplitl [H5]; · iexists _; iexact H5
    isplitl [H6]; · iexists _; iexact H6
    isplitl [HS0]; · iexists _; iexact HS0
    iexists _; iexact HS1

end Cert.Kernel.Hand

end
-- ==== Proof.NodeFrameK.lean ====
import proofs.«168346_j773094113349_1_alg».proof.Proof.NodeRunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (F) in
abbrev Pcs := List (View.Piece (Elt F) S1x1 .f32)

-- A view's pieces read back over junk: what the stores alone determine.
def rb (v : View sig .tc .vmem S1x1 .f32) (L : Pcs F) : Vec F S1x1 .f32 := v.read (Elt F) (v.writes (Elt F) v.junk L)

-- A run's four piece lists read back: outputs 5 and 6, then the two accumulators.
abbrev rd4 {P : Pcs F → Pcs F → Pcs F → Pcs F → Prop} (r : Σ' L5 L6 LS0, {LS1 // P L5 L6 LS0 LS1}) :=
  (rb VO1_5 r.1, rb VO1_6 r.2.1, rb VS1_0 r.2.2.1, rb VS1_1 r.2.2.2.1)

section
variable (c : Dev nD) (t : Fin cfg1.N)

-- The three case runs at point `t`: at its memrefs and input blocks, over the accumulators `p`.
abbrev runA (h0 : t.val = 0) (h1 : ¬t.val = 249) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).2 h0) (mt (hcond1_1 t).1 h1) (iblk1 V c 0 t) (iblk1 V c 1 t) (iblk1 V c 2 t) (iblk1 V c 3 t) (iblk1 V c 4 t)
abbrev runB (h0 : ¬t.val = 0) (h1 : ¬t.val = 249) (p : Vec F S1x1 .f32 × Vec F S1x1 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (mt (hcond1_0 t).1 h0) (mt (hcond1_1 t).1 h1) (iblk1 V c 0 t) (iblk1 V c 1 t) (iblk1 V c 2 t) (iblk1 V c 3 t) (iblk1 V c 4 t) p.1 p.2
abbrev runC (h0 : ¬t.val = 0) (h1 : t.val = 249) (p : Vec F S1x1 .f32 × Vec F S1x1 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (mt (hcond1_0 t).1 h0) ((hcond1_1 t).2 h1) (iblk1 V c 0 t) (iblk1 V c 1 t) (iblk1 V c 2 t) (iblk1 V c 3 t) (iblk1 V c 4 t) p.1 p.2
end

-- What outputs 5 and 6 and the two accumulators hold after point `n`: the point's case run over what the point before left.
def outsAt1 (c : Dev nD) : (n : ℕ) → n < cfg1.N → Vec F S1x1 .f32 × Vec F S1x1 .f32 × Vec F S1x1 .f32 × Vec F S1x1 .f32
  | 0, hn => rd4 (runA V c ⟨0, hn⟩ rfl (by decide : ¬(0 : ℕ) = 249))
  | n + 1, hn =>
    let p := (outsAt1 c n (Nat.lt_of_succ_lt hn)).2.2
    if h1 : n + 1 = 249 then rd4 (runC V c ⟨n + 1, hn⟩ n.succ_ne_zero h1 p) else rd4 (runB V c ⟨n + 1, hn⟩ n.succ_ne_zero h1 p)

section
variable (c : Dev nD) (t : Fin cfg1.N)

-- The accumulators as the point before `t` left them.
abbrev prev := (outsAt1 V c (t.val - 1) (Nat.lt_of_le_of_lt (Nat.sub_le _ _) t.isLt)).2.2

theorem outsAt1_A (h0 : t.val = 0) (h1 : ¬t.val = 249) : outsAt1 V c t.val t.isLt = rd4 (runA V c t h0 h1) := by
  obtain ⟨_ | n, hn⟩ := t
  · rfl
  · exact absurd h0 n.succ_ne_zero

theorem outsAt1_B (h0 : ¬t.val = 0) (h1 : ¬t.val = 249) : outsAt1 V c t.val t.isLt = rd4 (runB V c t h0 h1 (prev V c t)) := by
  obtain ⟨_ | n, hn⟩ := t
  · exact absurd rfl h0
  · exact (dif_neg h1).trans rfl

theorem outsAt1_C (h0 : ¬t.val = 0) (h1 : t.val = 249) : outsAt1 V c t.val t.isLt = rd4 (runC V c t h0 h1 (prev V c t)) := by
  obtain ⟨_ | n, hn⟩ := t
  · exact absurd rfl h0
  · exact (dif_pos h1).trans rfl
end

-- The invariant with the two accumulators at `p`.
def PhiAt (c : Dev nD) (p : Vec F S1x1 .f32 × Vec F S1x1 .f32) : sProp 𝕄 :=
  iprop(iprop(iprop(owns (c : Thread nD τ) scM1_0 fullShare p.1 ∗ owns (c : Thread nD τ) scM1_1 fullShare p.2) ∗ Rest1 (F := F) c) ∗ (∃ r, prngReg c r))

-- The invariant before position `n`: after the first point the accumulators hold what the point before left.
def PhiS1 (c : Dev nD) : (n : ℕ) → n ≤ cfg1.N → sProp 𝕄
  | 0, _ => Pipeline.ΦA spec1 c
  | n + 1, hn => PhiAt c (outsAt1 V c n hn).2.2

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) : PhiS1 V c n h = PhiAt c (outsAt1 V c (n - 1) (by omega)).2.2 := by
  cases n with
  | zero => exact absurd rfl hz
  | succ n => rfl

-- After the body at point `t` an input window holds its block, an output what the point's case run leaves.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

-- Stores whose pieces tile a buffer leave it at their readback, whatever it held.
theorem owns_rb (c : Dev nD) (M : Memref sig .tc .vmem S1x1 .f32) (v : View sig .tc .vmem S1x1 .f32) (L : Pcs F)
    (hL : View.Piece.tiledL L S1x1.size = true) :
    iprop(∃ f, M.view.loc (c : Thread nD τ) ↦[M.view.set]{fullShare} M.view.writes (Elt F) f L) ⊢ (owns (c : Thread nD τ) M fullShare (rb v L) : sProp 𝕄) := by
  iintro ⟨%f, H⟩
  unfold owns rb; iexists _; isplitr
  swap; · iexact H
  ipureintro; exact View.read_writes_of_cover _ _ _ _ _ (View.cover_of_tiledL L _ hL)

def bodyPre1 (c : Dev nD) (t : Fin cfg1.N) : sProp 𝕄 :=
  let P (w : Fin cfg1.W) : sProp 𝕄 := iprop(∃ d, owns (c : Thread nD τ) ((cfg1.win w).stage (cfg1.slots t w)) fullShare ((dat1 V c).before w t d))
  iprop((dat1 V c).Φ t.castSucc ∗ (dat1 V c).owesAt () t.castSucc ∗ P 0 ∗ P 1 ∗ P 2 ∗ P 3 ∗ P 4 ∗ P 5 ∗ P 6)

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem leavesLive (c : Dev nD) (t : Fin cfg1.N) (w : Fin cfg1.W) (X) (h : cfg1.idle w (grid1.coords t) = false) (hX : (dat1 V c).after w t = X) :
    (dat1 V c).leavesExact w t = owns (c : Thread nD τ) ((cfg1.win w).stage (cfg1.slots t w)) fullShare X := by
  subst hX; unfold Dat.leavesExact; rw [h]

set_option maxHeartbeats 1000000 in
-- The body at any point: the closed forms pick the point's case and that case's run applies; the invariant lends the accumulators and takes them back at the point's contents.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0_of V (dat1 V c) rfl fun _ => rfl, before1_1_of V (dat1 V c) rfl fun _ => rfl, before1_2_of V (dat1 V c) rfl fun _ => rfl,
    before1_3_of V (dat1 V c) rfl fun _ => rfl, before1_4_of V (dat1 V c) rfl fun _ => rfl]
  rw [show (dat1 V c).owesAt () t.succ = (dat1 V c).owesAt () t.castSucc from rfl,
    show (dat1 V c).Φ t.succ = PhiAt c (outsAt1 V c t.val t.isLt).2.2 from rfl,
    show (dat1 V c).Φ t.castSucc = PhiS1 V c t.val (Nat.le_of_lt t.isLt) from rfl,
    leavesLive V c t 0 (iblk1 V c 0 t) (liveAt1_0 t) rfl, leavesLive V c t 1 (iblk1 V c 1 t) (liveAt1_1 t) rfl, leavesLive V c t 2 (iblk1 V c 2 t) (liveAt1_2 t) rfl,
    leavesLive V c t 3 (iblk1 V c 3 t) (liveAt1_3 t) rfl, leavesLive V c t 4 (iblk1 V c 4 t) (liveAt1_4 t) rfl]

  by_cases h1 : t.val = 249
  · have h0 : ¬t.val = 0 := by omega
    have hc1 := (hcond1_1 t).2 h1
    have tt : View.Piece.tiledL (runC V c t h0 h1 (prev V c t)).1 S1x1.size = true ∧ View.Piece.tiledL (runC V c t h0 h1 (prev V c t)).2.1 S1x1.size = true ∧ View.Piece.tiledL (runC V c t h0 h1 (prev V c t)).2.2.1 S1x1.size = true ∧ View.Piece.tiledL (runC V c t h0 h1 (prev V c t)).2.2.2.1 S1x1.size = true :=
      ⟨by sl_kernel_rfl, by sl_kernel_rfl, by sl_kernel_rfl, by sl_kernel_rfl⟩
    rw [leavesLive V c t 5 (outsAt1 V c t.val t.isLt).1 (outLive1 5 (by decide) t hc1) rfl, leavesLive V c t 6 (outsAt1 V c t.val t.isLt).2.1 (outLive1 6 (by decide) t hc1) rfl,
      outsAt1_C V c t h0 h1, PhiS1_pos V c _ _ h0]
    unfold PhiAt rd4; dsimp only
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runC V c t h0 h1 _).2.2.2.2 Set.univ _)
    unfold ins1
    iframe H0 H1 H2 H3 H4 HS0 HS1
    isplitl [H5]; · iexists _; iexact H5
    isplitl [H6]; · iexists _; iexact H6
    iintro ⟨⟨H0, H1, H2, H3, H4⟩, H5, H6, HS0, HS1⟩
    ihave O5 := (owns_rb c _ VO1_5 _ tt.1) $$ H5
    ihave O6 := (owns_rb c _ VO1_6 _ tt.2.1) $$ H6
    ihave S0 := (owns_rb c _ VS1_0 _ tt.2.2.1) $$ HS0
    ihave S1 := (owns_rb c _ VS1_1 _ tt.2.2.2) $$ HS1
    iframe
  have hc1 := mt (hcond1_1 t).1 h1
  rw [Dat.leavesExact_idle (dat1 V c) 5 t (outIdle1 5 (by decide) t hc1).1 (outIdle1 5 (by decide) t hc1).2,
    Dat.leavesExact_idle (dat1 V c) 6 t (outIdle1 6 (by decide) t hc1).1 (outIdle1 6 (by decide) t hc1).2]
  by_cases h0 : t.val = 0
  on_goal 1 =>
    have tt : View.Piece.tiledL (runA V c t h0 h1).2.2.1 S1x1.size = true ∧ View.Piece.tiledL (runA V c t h0 h1).2.2.2.1 S1x1.size = true := ⟨by sl_kernel_rfl, by sl_kernel_rfl⟩
    rw [outsAt1_A V c t h0 h1, PhiS1_zero V c _ _ h0, PhiA1_eq]
  on_goal 2 =>
    have tt : View.Piece.tiledL (runB V c t h0 h1 (prev V c t)).2.2.1 S1x1.size = true ∧ View.Piece.tiledL (runB V c t h0 h1 (prev V c t)).2.2.2.1 S1x1.size = true := ⟨by sl_kernel_rfl, by sl_kernel_rfl⟩
    rw [outsAt1_B V c t h0 h1, PhiS1_pos V c _ _ h0]
  all_goals
    unfold PhiAt rd4; dsimp only
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    first | iapply ((runA V c t h0 h1).2.2.2.2 _ _ Set.univ _) | iapply ((runB V c t h0 h1 _).2.2.2.2 _ _ Set.univ _)
    unfold ins1
    iframe H0 H1 H2 H3 H4 H5 H6 HS0 HS1
    iintro ⟨⟨H0, H1, H2, H3, H4⟩, H5, H6, HS0, HS1⟩
    ihave S0 := (owns_rb c _ VS1_0 _ tt.1) $$ HS0
    ihave S1 := (owns_rb c _ VS1_1 _ tt.2) $$ HS1
    iframe S0 S1 HR Hg Ho H0 H1 H2 H3 H4
    isplitl [H5]; · iexists _; iexact H5
    iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.refl _

-- After any point but the first the accumulators' contents may be forgotten.
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiAt
  iintro ⟨⟨⟨HS0, HS1⟩, HR⟩, Hg⟩
  iframe HR Hg
  isplitl [HS0]
  · iexists _; iexact HS0
  · iexists _; iexact HS1

theorem hout1 (c : Dev nD) : (dat1 V c).Φ (Fin.last cfg1.N) ⊢ Pipeline.ΦA spec1 c :=
  Phi_out1 V c _ (by rw [Fin.val_last]; have : cfg1.N = 250 := N_1; omega)

end Cert.Kernel.Hand

end
-- ==== Proof.MainRunK.lean ====
import proofs.«168346_j773094113349_1_alg».proof.Proof.FoldAK
import proofs.«168346_j773094113349_1_alg».proof.Proof.NodeFrameK
import proofs.«168346_j773094113349_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- after the node region: its arrays at their final contents, every other buffer as entered
def W17 (c : Dev nD) : Valuation τ sig (Elt F) :=
  Pipeline.withArrays spec1 c (W16 m c) fun w => (dat1 (U16 m) c).arrAt w cfg1.N
theorem W17_arr (c : Dev nD) (w : Fin cfg1.W) :
    W17 m c (Proc.devRef .tc (Pipeline.arrRef spec1 w)) = (dat1 (U16 m) c).arrAt w cfg1.N :=
  Pipeline.withArrays_arr spec1 launch1.win.arr_inj c _ _ w
theorem W17_of_ne (c : Dev nD) (b : Ref sig .tc) (hb : ∀ w, Pipeline.arrRef spec1 w ≠ b) :
    W17 m c (Proc.devRef .tc b) = W16 m c (Proc.devRef .tc b) :=
  Pipeline.withArrays_of_ne spec1 c _ _ b hb
abbrev U17 (c : Dev nD) (b : Ref sig .tc) : Buf (Elt F) ((c : Thread nD τ).loc b) := W17 m c b
theorem hrest1 (c : Dev nD) (b : Ref sig .tc) (hb : b ∉ Finset.univ.image (Pipeline.arrRef spec1)) : U17 m c b = U16 m c b :=
  W17_of_ne m c b fun w e => hb (Finset.mem_image.mpr ⟨w, Finset.mem_univ _, e⟩)
abbrev W18 (c : Dev nD) := StableHlo.after hostOps2 (W17 m c)

-- a buffer that no host stretch writes and that is no array of the edge region holds its launch contents at the node region's entry
theorem W16_of_untouched (c : Dev nD) (r : Ref sig .tc) :
    (r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ (∀ w, Pipeline.arrRef spec0 w ≠ r) ∧ r ∉ hostOps1_W ∧ r ∉ hostOps1_1_W) →
    W16 m c (Proc.devRef .tc r) = m ((c : Thread nD τ).loc r)
  | ⟨h0, h1, h2, h3, h4, h5, h6, h7, h8, h9, h10, h11, h12, ha, h14, h15⟩ =>
  (StableHlo.after_of_writes_sub _ _ hostOps1_1_writes h15).trans <|
  (StableHlo.after_of_writes_sub _ _ hostOps1_writes h14).trans <|
  (W14_of_ne m c r ha).trans <|
  (V13_of m c r h12).trans <|
  (V12_of m c r h11).trans <|
  (V11_of m c r h10).trans <|
  (V10_of m c r h9).trans <|
  (V9_of m c r h8).trans <|
  (V8_of m c r h7).trans <|
  (V7_of m c r h6).trans <|
  (V6_of m c r h5).trans <|
  (V5_of m c r h4).trans <|
  (V4_of m c r h3).trans <|
  (V3_of m c r h2).trans <|
  (V2_of m c r h1).trans <|
  (V1_of m c r h0).trans <| rfl

theorem W16_main_arg0 (c : Dev nD) : W16 m c (Proc.devRef .tc main_arg0) = m ((c : Thread nD τ).loc main_arg0) :=
  W16_of_untouched m c main_arg0 (by decide)
theorem W16_main_arg2 (c : Dev nD) : W16 m c (Proc.devRef .tc main_arg2) = m ((c : Thread nD τ).loc main_arg2) :=
  W16_of_untouched m c main_arg2 (by decide)

def pdatsH : (p : Fin 2) → (c : Dev nD) → Dat τ (Elt F) Unit ℕ (UR sig nD τ) ℕ (Pipeline.pin (pcfgs (F := F)) adm p) c
  | ⟨0, _⟩ => fun c => dat0 (U13 m) c
  | ⟨1, _⟩ => fun c => dat1 (U16 m) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev HH (W : Dev nD → Valuation τ sig (Elt F)) (c : Dev nD) : sProp 𝕄 := iprop(StableHlo.held (c : Thread nD τ) (Pipeline.ucRefs τ sig) (W c) ∗ RH c)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W18 m c) ∗ ∃ r, prngReg c r)

theorem phiA_of_parts {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) win c)
      ⊢ (Pipeline.ΦA win c : sProp 𝕄) := by
  unfold Pipeline.ΦA
  iintro ⟨Hp, -, Hr⟩
  isplitl [Hr]; · iexact Hr
  iexact Hp

theorem parts_of_phiA {gr W : Nat} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest (Ix := Unit) (Name := ℕ) (U := UR sig nD τ) (Lvl := ℕ) win c) := by
  rw [Pipeline.ownSems0_none]; unfold Pipeline.ΦA
  iintro ⟨Hr, Hp⟩
  isplitl [Hp]; · iexact Hp
  isplitr; · iempintro
  iexact Hr

set_option backward.isDefEq.respectTransparency.types false in
-- both regions: entered at one boundary's contents, left at the next's
def regsH : Pipeline.RegionSeg (pcfgs (F := F)) adm (pdatsH m) () defs₀ 𝒱H LH lvH 0 × Pipeline.RegionSeg (pcfgs (F := F)) adm (pdatsH m) () defs₀ 𝒱H LH lvH 1 := by
  refine ⟨{
  win := launch0.win.to₀
  block_pos := launch0.block_pos
  stage_whole := launch0.stage_whole
  K := PEmpty
  osem k := k.elim
  ho := Pipeline.OwnSemFacts.none _
  hbody c := (body_obligation0 (U13 m) c).loose
  hwaits := Pipeline.hwaits_of_owed_zero _ _ _ _ LH lvH 0 fun _ _ => rfl
  pre := HH (W13 m)
  post := HH (W14 m)
  X c := iprop(∃ r, prngReg c r)
  Y c := iprop(∃ r, prngReg c r)
  Z c := Pipeline.unscopedRest (Ix := Unit) (Name := ℕ) (U := UR sig nD τ) (Lvl := ℕ) spec0 c (U13 m c)
  hentry := fun c =>
    have hsplit := Pipeline.arrays_of_unscopedBufs (p := 0) (pcfgs (F := F)) adm (pdatsH m) launch0.win launch0.arr_whole c
      ((pdatsH m 0 c).share_full fun _ => rfl) (U13 m c) fun _ => rfl
    ?_
  hin := fun c => phiA_of_parts spec0 c _
  hout := fun c => parts_of_phiA spec0 c
  hexit := fun c =>
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (U13 m c) (U14 m c) ((pdatsH m 0 c).arrAt · cfg0.N) (fun w => (W14_arr m c w).symm) (hrest0 m c)
    ?_ },
  {
  win := launch1.win.to₀
  block_pos := launch1.block_pos
  stage_whole := launch1.stage_whole
  K := PEmpty
  osem k := k.elim
  ho := Pipeline.OwnSemFacts.none _
  hbody c := (body_obligation1 (U16 m) c).loose
  hwaits := Pipeline.hwaits_of_owed_zero _ _ _ _ LH lvH 1 fun _ _ => rfl
  pre := HH (W16 m)
  post := HH (W17 m)
  X c := iprop(∃ r, prngReg c r)
  Y c := iprop(∃ r, prngReg c r)
  Z c := Pipeline.unscopedRest (Ix := Unit) (Name := ℕ) (U := UR sig nD τ) (Lvl := ℕ) spec1 c (U16 m c)
  hentry := fun c =>
    have hsplit := Pipeline.arrays_of_unscopedBufs (p := 1) (pcfgs (F := F)) adm (pdatsH m) launch1.win launch1.arr_whole c
      ((pdatsH m 1 c).share_full fun _ => rfl) (U16 m c) fun _ => rfl
    ?_
  hin := fun c => (phiA_of_parts spec1 c _).trans (hin1 (U16 m) c)
  hout := fun c => (hout1 (U16 m) c).trans (parts_of_phiA spec1 c)
  hexit := fun c =>
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (U16 m c) (U17 m c) ((pdatsH m 1 c).arrAt · cfg1.N) (fun w => (W17_arr m c w).symm) (hrest1 m c)
    ?_ }⟩ <;>
  first
  | rw [Pipeline.ownSems0_none]; rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  | rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsH : List (Pipeline.Seg (pcfgs (F := F)) adm (pdatsH m) () defs₀ 𝒱H LH lvH) :=
  [ .host (seg0 m 𝒱H LH lvH fun _ => RH),
    .host (seg1 m 𝒱H LH lvH fun _ => RH),
    .host (seg2 m 𝒱H LH lvH fun _ => RH),
    .host (seg3 m 𝒱H LH lvH fun _ => RH),
    .host (seg4 m 𝒱H LH lvH fun _ => RH),
    .host (seg5 m 𝒱H LH lvH fun _ => RH),
    .host (seg6 m 𝒱H LH lvH fun _ => RH),
    .host (seg7 m 𝒱H LH lvH fun _ => RH),
    .host (seg8 m 𝒱H LH lvH fun _ => RH),
    .host (seg9 m 𝒱H LH lvH fun _ => RH),
    .host (seg10 m 𝒱H LH lvH fun _ => RH),
    .host (seg11 m 𝒱H LH lvH fun _ => RH),
    .host (seg12 m 𝒱H LH lvH fun _ => RH),
    .region (regsH m).1,
    .host (hsegH hostOps1 hostOps1_sub hostOps1_fresh (W14 m)),
    .host (hsegH hostOps1_1 hostOps1_1_sub hostOps1_1_fresh (W15 m)),
    .region (regsH m).2,
    .host (hsegH hostOps2 hostOps2_sub hostOps2_fresh (W17 m)) ]

theorem main_runH (c : Dev nD) : main (F := F) c = Pipeline.Seg.run (segsH m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := HH (W0 m)) (Tₙ := TnH m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h => h)

theorem run_result : θ_run defs (onTc (τ := τ) (main (F := F))) ⟨m, fun _ => 0, ρ⟩ (fun r => ∀ c : Dev nD,
      r.2.mem ((c.tc : Thread nD τ).loc main_v90) = W18 m c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_ucH main_v90 (by decide)),
     (h c _ (mem_ucH main_arg0 (by decide))).trans <| (StableHlo.after_of_writes_sub hostOps2 _ hostOps2_writes (r := main_arg0) (by decide)).trans <|
       (W17_arr m c 0).trans <| ((dat1 (U16 m) c).arrAt_in 0 rfl _).trans <| (A_eq1 (U16 m) c 0).trans (W16_main_arg0 m c),
     (h c _ (mem_ucH main_arg1 (by decide))).trans <| (StableHlo.after_of_writes_sub hostOps2 _ hostOps2_writes (r := main_arg1) (by decide)).trans <|
       (W17_of_ne m c main_arg1 (by decide)).trans (W16_of_untouched m c main_arg1 (by decide)),
     (h c _ (mem_ucH main_arg2 (by decide))).trans <| (StableHlo.after_of_writes_sub hostOps2 _ hostOps2_writes (r := main_arg2) (by decide)).trans <|
       (W17_arr m c 1).trans <| ((dat1 (U16 m) c).arrAt_in 1 rfl _).trans <| (A_eq1 (U16 m) c 1).trans (W16_main_arg2 m c),
     (h c _ (mem_ucH main_arg3 (by decide))).trans <| (StableHlo.after_of_writes_sub hostOps2 _ hostOps2_writes (r := main_arg3) (by decide)).trans <|
       (W17_of_ne m c main_arg3 (by decide)).trans (W16_of_untouched m c main_arg3 (by decide))⟩) (run_all m ρ)

end Cert.Kernel.Hand

end
-- ==== Proof.EdgeFrame.lean ====
import proofs.«168346_j773094113349_1_alg».proof.Proof.Gen.KernelIdeal.Launch
import proofs.«168346_j773094113349_1_alg».proof.Proof.Gen.KernelIdeal.Skeleton
import proofs.«168346_j773094113349_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block at point `t` of its array, the arrays at `V`
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S2048x128 := Rect.unit (s := S2048x128) ![0, 0] S2048x128.size inb_S2048x128_S2048x128_0_0

section
variable (x0 x1 x2 x3 x4 x5 : Vec F S2048x128 .f32)

def out0_6 : Vec F S2048x128 .f32 := View.canon [⟨r0, k0_pay11 (View.ld x0 r0) (View.ld x1 r0) (View.ld x2 r0) (View.ld x3 r0) (View.ld x4 r0) (View.ld x5 r0)⟩]
def out0_7 : Vec F S2048x128 .f32 := View.canon [⟨r0, k0_pay12 (View.ld x0 r0) (View.ld x1 r0) (View.ld x2 r0) (View.ld x3 r0) (View.ld x4 r0) (View.ld x5 r0)⟩]
def out0_8 : Vec F S2048x128 .f32 := View.canon [⟨r0, k0_pay13 (View.ld x0 r0) (View.ld x1 r0) (View.ld x2 r0) (View.ld x3 r0) (View.ld x4 r0) (View.ld x5 r0)⟩]
def out0_9 : Vec F S2048x128 .f32 := View.canon [⟨r0, k0_pay14 (View.ld x0 r0) (View.ld x1 r0) (View.ld x2 r0) (View.ld x3 r0) (View.ld x4 r0) (View.ld x5 r0)⟩]

end

abbrev owns0 (c : Dev nD) (a : Memref sig .tc .vmem S2048x128 .f32) (x : Vec F S2048x128 .f32) : sProp 𝕄 :=
  owns (c : Thread nD τ) a fullShare x

set_option maxHeartbeats 4000000 in
-- the body: the six inputs unchanged, each output at its payload of them
theorem sound_kernel0 (c : Dev nD) {i : grid0.Coords} {a0 a1 a2 a3 a4 a5 a6 a7 a8 a9 : Memref sig .tc .vmem S2048x128 .f32}
    {h0 : a0.IsWhole} {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole}
    (x0 x1 x2 x3 x4 x5 : Vec F S2048x128 .f32) {g0 g1 g2 g3 g4 g5 g6 g7 g8 g9 : Vec F S2048x128 .f32 → Vec F S2048x128 .f32}
    (e0 : ∀ d, g0 d = x0) (e1 : ∀ d, g1 d = x1) (e2 : ∀ d, g2 d = x2) (e3 : ∀ d, g3 d = x3) (e4 : ∀ d, g4 d = x4) (e5 : ∀ d, g5 d = x5) {P Q : sProp 𝕄} :
    iprop(P ∗ Q ∗ (∃ d, owns0 c a0 (g0 d)) ∗ (∃ d, owns0 c a1 (g1 d)) ∗ (∃ d, owns0 c a2 (g2 d)) ∗ (∃ d, owns0 c a3 (g3 d)) ∗ (∃ d, owns0 c a4 (g4 d)) ∗ (∃ d, owns0 c a5 (g5 d)) ∗ (∃ d, owns0 c a6 (g6 d)) ∗ (∃ d, owns0 c a7 (g7 d)) ∗ (∃ d, owns0 c a8 (g8 d)) ∗ (∃ d, owns0 c a9 (g9 d)))
      ⊢ wp frame (wpE (defs₀ (F := F)) Variants.none c none) Set.univ (cc0__edge_kernel i a0 h0 a1 h1 a2 h2 a3 h3 a4 h4 a5 h5 a6 h6 a7 h7 a8 h8 a9 h9) fun _ =>
        iprop(P ∗ Q ∗ owns0 c a0 x0 ∗ owns0 c a1 x1 ∗ owns0 c a2 x2 ∗ owns0 c a3 x3 ∗ owns0 c a4 x4 ∗ owns0 c a5 x5
          ∗ owns0 c a6 (out0_6 x0 x1 x2 x3 x4 x5) ∗ owns0 c a7 (out0_7 x0 x1 x2 x3 x4 x5) ∗ owns0 c a8 (out0_8 x0 x1 x2 x3 x4 x5) ∗ owns0 c a9 (out0_9 x0 x1 x2 x3 x4 x5)) := by
  simp only [cc0__edge_kernel_eq_skeleton, e0, e1, e2, e3, e4, e5]; unfold cc0__edge_kernel_skel owns0 owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩, ⟨%d7, %f7, -, H7⟩, ⟨%d8, %f8, -, H8⟩, ⟨%d9, %f9, -, H9⟩⟩
  subst hf0; subst hf1; subst hf2; subst hf3; subst hf4; subst hf5
  sl_exec
  sl_step
  isplitl [HP]; · iexact HP
  isplitl [HQ]; · iexact HQ
  isplitl [H0]; swap; isplitl [H1]; swap; isplitl [H2]; swap; isplitl [H3]; swap; isplitl [H4]; swap; isplitl [H5]; swap; isplitl [H6]; swap; isplitl [H7]; swap; isplitl [H8]; swap
  all_goals (iexists _; isplitr; swap; iassumption; ipureintro; first | exact View.read_writes_eq_canon _ _ _ (View.cover_of_tiled _ S2048x128.size (by rfl)) | rfl)

-- after the body an input window holds its block and an output its payload of the six blocks
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := Pipeline.ΦA spec0 c
  q _ := fullShare
  owed _ := 0

section
variable (c : Dev nD) (t : Fin cfg0.N)

theorem after0_6 : (dat0 V c).after 6 t = out0_6 (iblk0 V c 0 t) (iblk0 V c 1 t) (iblk0 V c 2 t) (iblk0 V c 3 t) (iblk0 V c 4 t) (iblk0 V c 5 t) := by dsimp only [dat0]
theorem after0_7 : (dat0 V c).after 7 t = out0_7 (iblk0 V c 0 t) (iblk0 V c 1 t) (iblk0 V c 2 t) (iblk0 V c 3 t) (iblk0 V c 4 t) (iblk0 V c 5 t) := by dsimp only [dat0]
theorem after0_8 : (dat0 V c).after 8 t = out0_8 (iblk0 V c 0 t) (iblk0 V c 1 t) (iblk0 V c 2 t) (iblk0 V c 3 t) (iblk0 V c 4 t) (iblk0 V c 5 t) := by dsimp only [dat0]
theorem after0_9 : (dat0 V c).after 9 t = out0_9 (iblk0 V c 0 t) (iblk0 V c 1 t) (iblk0 V c 2 t) (iblk0 V c 3 t) (iblk0 V c 4 t) (iblk0 V c 5 t) := by dsimp only [dat0]

end

theorem body_obligation0 (c : Dev nD) : BodyObligation (dat0 (F := F) V c) (defs₀ (F := F)) Variants.none () Set.univ := fun t => by
  rw [bigSep_W0, bigSep_W0]
  show _ ⊢ wp frame _ _ (bodyAt0 t) _
  rw [after0_6, after0_7, after0_8, after0_9]
  have b := (dat0 V c).before_fetched
  exact sound_kernel0 c (iblk0 V c 0 t) (iblk0 V c 1 t) (iblk0 V c 2 t) (iblk0 V c 3 t) (iblk0 V c 4 t) (iblk0 V c 5 t) (b 0 t (fetch0_0 t)) (b 1 t (fetch0_1 t)) (b 2 t (fetch0_2 t)) (b 3 t (fetch0_3 t)) (b 4 t (fetch0_4 t)) (b 5 t (fetch0_5 t))

end Cert.KernelIdeal.Hand
-- ==== Proof.FoldA.lean ====
import proofs.«168346_j773094113349_1_alg».proof.Proof.EdgeFrame
import proofs.«168346_j773094113349_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ)

-- the unscoped buffers at each boundary of @main: the launch memory, then each host stretch applied in turn
abbrev W0 : Dev nD → Valuation τ sig (Elt F) := fun c b => m (c, b)
abbrev W1 (c : Dev nD) := StableHlo.after hostOps0 (W0 m c)
abbrev W2 (c : Dev nD) := StableHlo.after hostOps0_1 (W1 m c)
abbrev W3 (c : Dev nD) := StableHlo.after hostOps0_2 (W2 m c)
abbrev W4 (c : Dev nD) := StableHlo.after hostOps0_3 (W3 m c)
abbrev W5 (c : Dev nD) := StableHlo.after hostOps0_4 (W4 m c)
abbrev W6 (c : Dev nD) := StableHlo.after hostOps0_5 (W5 m c)
abbrev W7 (c : Dev nD) := StableHlo.after hostOps0_6 (W6 m c)
abbrev W8 (c : Dev nD) := StableHlo.after hostOps0_7 (W7 m c)
abbrev W9 (c : Dev nD) := StableHlo.after hostOps0_8 (W8 m c)
abbrev W10 (c : Dev nD) := StableHlo.after hostOps0_9 (W9 m c)
abbrev W11 (c : Dev nD) := StableHlo.after hostOps0_10 (W10 m c)
abbrev W12 (c : Dev nD) := StableHlo.after hostOps0_11 (W11 m c)
abbrev W13 (c : Dev nD) := StableHlo.after hostOps0_12 (W12 m c)
abbrev U13 (c : Dev nD) (b : Ref sig .tc) : Buf (Elt F) ((c : Thread nD τ).loc b) := W13 m c b
-- after the edge region: its arrays at their final contents, every other buffer as entered
def W14 (c : Dev nD) : Valuation τ sig (Elt F) :=
  Pipeline.withArrays spec0 c (W13 m c) fun w => (dat0 (U13 m) c).arrAt w cfg0.N
theorem W14_arr (c : Dev nD) (w : Fin cfg0.W) :
    W14 m c (Proc.devRef .tc (Pipeline.arrRef spec0 w)) = (dat0 (U13 m) c).arrAt w cfg0.N :=
  Pipeline.withArrays_arr spec0 launch0.win.arr_inj c _ _ w
theorem W14_of_ne (c : Dev nD) (b : Ref sig .tc) (hb : ∀ w, Pipeline.arrRef spec0 w ≠ b) :
    W14 m c (Proc.devRef .tc b) = W13 m c (Proc.devRef .tc b) :=
  Pipeline.withArrays_of_ne spec0 c _ _ b hb
abbrev U14 (c : Dev nD) (b : Ref sig .tc) : Buf (Elt F) ((c : Thread nD τ).loc b) := W14 m c b
theorem hrest0 (c : Dev nD) (b : Ref sig .tc) (hb : b ∉ Finset.univ.image (Pipeline.arrRef spec0)) : U14 m c b = U13 m c b :=
  W14_of_ne m c b fun w e => hb (Finset.mem_image.mpr ⟨w, Finset.mem_univ _, e⟩)
abbrev W15 (c : Dev nD) := StableHlo.after hostOps1 (W14 m c)
abbrev W16 (c : Dev nD) := StableHlo.after hostOps1_1 (W15 m c)
abbrev U16 (c : Dev nD) (b : Ref sig .tc) : Buf (Elt F) ((c : Thread nD τ).loc b) := W16 m c b

end Cert.KernelIdeal.Hand

end
-- ==== Proof.NodeRuns.lean ====
import proofs.«168346_j773094113349_1_alg».proof.Proof.Gen.KernelIdeal.Launch
import proofs.«168346_j773094113349_1_alg».proof.Proof.Gen.KernelIdeal.Skeleton
import proofs.«168346_j773094113349_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (UR sig nD τ) ℕ cfg1 c)
theorem before1_0_of (hA : dat.A 0 = V c (Pipeline.arrRef spec1 0)) (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter, iblk1, ← hA]; rfl) t d).trans (by rw [iblk1, ← hA]; rfl)
theorem before1_1_of (hA : dat.A 1 = V c (Pipeline.arrRef spec1 1)) (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter, iblk1, ← hA]; rfl) t d).trans (by rw [iblk1, ← hA]; rfl)
theorem before1_2_of (hA : dat.A 2 = V c (Pipeline.arrRef spec1 2)) (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter, iblk1, ← hA]; rfl) t d).trans (by rw [iblk1, ← hA]; rfl)
theorem before1_3_of (hA : dat.A 3 = V c (Pipeline.arrRef spec1 3)) (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter, iblk1, ← hA]; rfl) t d).trans (by rw [iblk1, ← hA]; rfl)
theorem before1_4_of (hA : dat.A 4 = V c (Pipeline.arrRef spec1 4)) (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter, iblk1, ← hA]; rfl) t d).trans (by rw [iblk1, ← hA]; rfl)
end

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel

abbrev cond1_1 (i : grid1.Coords) : Prop := k1_cond2 i = 1#1
theorem hcond1_1 : ∀ t : Fin cfg1.N, cond1_1 (grid1.coords t) ↔ t.val = 249 := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem outIdle1 : ∀ w : Fin cfg1.W, 5 ≤ w.val → ∀ t : Fin cfg1.N, ¬cond1_1 (grid1.coords t) → cfg1.idle w (grid1.coords t) = true ∧ (cfg1.win w).flush t = false := by decide +kernel
theorem outLive1 : ∀ w : Fin cfg1.W, 5 ≤ w.val → ∀ t : Fin cfg1.N, cond1_1 (grid1.coords t) → cfg1.idle w (grid1.coords t) = false := by decide +kernel

abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view
section
variable (t : Fin cfg1.N)
abbrev ms1_0 : Memref sig .tc .vmem S4000x6 .f32 := win1_0.stage (cfg1.slots t 0)
abbrev hs1_0 : (ms1_0 t).IsWhole := hstage1_0 ((cfg1.slots t 0).cast nbuf1_0)
abbrev ms1_1 : Memref sig .tc .vmem S4000x6 .f32 := win1_1.stage (cfg1.slots t 1)
abbrev hs1_1 : (ms1_1 t).IsWhole := hstage1_1 ((cfg1.slots t 1).cast nbuf1_1)
abbrev ms1_2 : Memref sig .tc .vmem S4000x2 .f32 := win1_2.stage (cfg1.slots t 2)
abbrev hs1_2 : (ms1_2 t).IsWhole := hstage1_2 ((cfg1.slots t 2).cast nbuf1_2)
abbrev ms1_3 : Memref sig .tc .vmem S1x6 .f32 := win1_3.stage (cfg1.slots t 3)
abbrev hs1_3 : (ms1_3 t).IsWhole := hstage1_3 ((cfg1.slots t 3).cast nbuf1_3)
abbrev ms1_4 : Memref sig .tc .vmem S1x6 .f32 := win1_4.stage (cfg1.slots t 4)
abbrev hs1_4 : (ms1_4 t).IsWhole := hstage1_4 ((cfg1.slots t 4).cast nbuf1_4)
abbrev ms1_5 : Memref sig .tc .vmem S1x1 .f32 := win1_5.stage (cfg1.slots t 5)
abbrev hs1_5 : (ms1_5 t).IsWhole := hstage1_5 ((cfg1.slots t 5).cast nbuf1_5)
abbrev ms1_6 : Memref sig .tc .vmem S1x1 .f32 := win1_6.stage (cfg1.slots t 6)
abbrev hs1_6 : (ms1_6 t).IsWhole := hstage1_6 ((cfg1.slots t 6).cast nbuf1_6)
end
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view

abbrev Rest1 (c : Dev nD) : sProp 𝕄 :=
  Pipeline.scopedRestBut spec1 c [cc1_scratch0, cc1_scratch1]

theorem PhiA1_eq (c : Dev nD) :
    (Pipeline.ΦA spec1 c : sProp 𝕄)
      = iprop(iprop(iprop((∃ d, owns c scM1_0 fullShare d) ∗ (∃ d, owns c scM1_1 fullShare d)) ∗ Rest1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.KernelIdeal.Hand

end
-- ==== Proof.NodeRunA.lean ====
import proofs.«168346_j773094113349_1_alg».proof.Proof.NodeRuns

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Reading through a whole memref is a bijection, so owning it at `X` fixes its raw contents. -/
theorem owns_eq_unread (c : Dev nD) {sp : Space} {sh : Shape} {e : EltTy} {m : Memref sig .tc sp sh e} (h : m.IsWhole) (X : sh.Idx → Elt F e) :
    (owns c m fullShare X : sProp 𝕄) = (m.view.loc c ↦[m.view.set]{fullShare} h.unread X) := by
  unfold owns
  refine BI.equiv_iff.mp ⟨?_, ?_⟩ <;> show (_ : sProp 𝕄) ⊢ _
  · iintro ⟨%f, %hf, H⟩; obtain rfl := h.eq_unread hf; iexact H
  · iintro H; iexists _; isplitr; · ipureintro; exact h.read_unread _
    iexact H

variable (c : Dev nD) (i : grid1.Coords) (arg1 : Memref sig .tc .vmem S4000x6 .f32) (harg1 : arg1.IsWhole) (arg2 : Memref sig .tc .vmem S4000x6 .f32) (harg2 : arg2.IsWhole) (arg3 : Memref sig .tc .vmem S4000x2 .f32) (harg3 : arg3.IsWhole) (arg4 : Memref sig .tc .vmem S1x6 .f32) (harg4 : arg4.IsWhole) (arg5 : Memref sig .tc .vmem S1x6 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)

/-- The five inputs' memrefs at their contents: what every run is handed and hands back unchanged. -/
def ins1 (x0 x1 : Vec F S4000x6 .f32) (x2 : Vec F S4000x2 .f32) (x3 x4 : Vec F S1x6 .f32) : sProp 𝕄 :=
  iprop(owns c arg1 fullShare x0 ∗ owns c arg2 fullShare x1 ∗ owns c arg3 fullShare x2 ∗ owns c arg4 fullShare x3 ∗ owns c arg5 fullShare x4)

/-- The run at the first point: the accumulators are zeroed, then the block's two sums are added; the outputs are untouched. -/
def kernelRun1_A (hc0 : cond1_0 i) (hc1 : ¬cond1_1 i) (x0 x1 : Vec F S4000x6 .f32) (x2 : Vec F S4000x2 .f32) (x3 x4 : Vec F S1x6 .f32) :
    Σ' (L5 L6 LS0 : List (View.Piece (Elt F) S1x1 .f32)), { LS1 : List (View.Piece (Elt F) S1x1 .f32) //
      ∀ (xi5 xi6 : Vec F S1x1 .f32) (E : Set ℕ) (K : PUnit → sProp 𝕄),
        iprop(ins1 c arg1 arg2 arg3 arg4 arg5 x0 x1 x2 x3 x4 ∗ owns c arg6 fullShare xi5 ∗ owns c arg7 fullShare xi6 ∗ (∃ d, owns c arg8 fullShare d) ∗ (∃ d, owns c arg9 fullShare d)
            ∗ (iprop(ins1 c arg1 arg2 arg3 arg4 arg5 x0 x1 x2 x3 x4 ∗ owns c arg6 fullShare xi5 ∗ owns c arg7 fullShare xi6 ∗ (∃ f, arg8.view.loc c ↦[arg8.view.set]{fullShare} arg8.view.writes (Elt F) f LS0) ∗ (∃ f, arg9.view.loc c ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨[], [], ?_, ?_, fun xi5 xi6 E K => ?run⟩
  case run =>
    simp only [ins1, owns_eq_unread, *]
    simp only [cc1__node_kernel_eq_skeleton]; unfold cc1__node_kernel_skel
    simp only [k1_part1_eq_skeleton]
    iintro ⟨⟨H0, H1, H2, H3, H4⟩, H5, H6, ⟨%d0, HS0⟩, ⟨%d1, HS1⟩, Hk⟩
    sl_exec (disch := first | exact hc0 | exact hc1)
    sl_step
    iapply Hk
    iframe
    isplitl [HS0]; · iexists _; iexact HS0
    iexists _; iexact HS1

/-- The run at a middle point: the block's two sums are added to the accumulators; the outputs are untouched. -/
def kernelRun1_B (hc0 : ¬cond1_0 i) (hc1 : ¬cond1_1 i) (x0 x1 : Vec F S4000x6 .f32) (x2 : Vec F S4000x2 .f32) (x3 x4 : Vec F S1x6 .f32) (xs0 xs1 : Vec F S1x1 .f32) :
    Σ' (L5 L6 LS0 : List (View.Piece (Elt F) S1x1 .f32)), { LS1 : List (View.Piece (Elt F) S1x1 .f32) //
      ∀ (xi5 xi6 : Vec F S1x1 .f32) (E : Set ℕ) (K : PUnit → sProp 𝕄),
        iprop(ins1 c arg1 arg2 arg3 arg4 arg5 x0 x1 x2 x3 x4 ∗ owns c arg6 fullShare xi5 ∗ owns c arg7 fullShare xi6 ∗ owns c arg8 fullShare xs0 ∗ owns c arg9 fullShare xs1
            ∗ (iprop(ins1 c arg1 arg2 arg3 arg4 arg5 x0 x1 x2 x3 x4 ∗ owns c arg6 fullShare xi5 ∗ owns c arg7 fullShare xi6 ∗ (∃ f, arg8.view.loc c ↦[arg8.view.set]{fullShare} arg8.view.writes (Elt F) f LS0) ∗ (∃ f, arg9.view.loc c ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨[], [], ?_, ?_, fun xi5 xi6 E K => ?run⟩
  case run =>
    simp only [ins1, owns_eq_unread, *]
    simp only [cc1__node_kernel_eq_skeleton]; unfold cc1__node_kernel_skel
    simp only [k1_part1_eq_skeleton]
    iintro ⟨⟨H0, H1, H2, H3, H4⟩, H5, H6, HS0, HS1, Hk⟩
    sl_exec (disch := first | exact hc0 | exact hc1)
    sl_step
    iapply Hk
    iframe
    isplitl [HS0]; · iexists _; iexact HS0
    iexists _; iexact HS1

/-- The run at the last point: the sums are added, then the accumulators are stored whole into the two outputs. -/
def kernelRun1_C (hc0 : ¬cond1_0 i) (hc1 : cond1_1 i) (x0 x1 : Vec F S4000x6 .f32) (x2 : Vec F S4000x2 .f32) (x3 x4 : Vec F S1x6 .f32) (xs0 xs1 : Vec F S1x1 .f32) :
    Σ' (L5 L6 LS0 : List (View.Piece (Elt F) S1x1 .f32)), { LS1 : List (View.Piece (Elt F) S1x1 .f32) //
      ∀ (E : Set ℕ) (K : PUnit → sProp 𝕄),
        iprop(ins1 c arg1 arg2 arg3 arg4 arg5 x0 x1 x2 x3 x4 ∗ (∃ d, owns c arg6 fullShare d) ∗ (∃ d, owns c arg7 fullShare d) ∗ owns c arg8 fullShare xs0 ∗ owns c arg9 fullShare xs1
            ∗ (iprop(ins1 c arg1 arg2 arg3 arg4 arg5 x0 x1 x2 x3 x4 ∗ (∃ f, arg6.view.loc c ↦[arg6.view.set]{fullShare} arg6.view.writes (Elt F) f L5) ∗ (∃ f, arg7.view.loc c ↦[arg7.view.set]{fullShare} arg7.view.writes (Elt F) f L6) ∗ (∃ f, arg8.view.loc c ↦[arg8.view.set]{fullShare} arg8.view.writes (Elt F) f LS0) ∗ (∃ f, arg9.view.loc c ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [ins1, owns_eq_unread, *]
    simp only [cc1__node_kernel_eq_skeleton]; unfold cc1__node_kernel_skel
    simp only [k1_part1_eq_skeleton]
    iintro ⟨⟨H0, H1, H2, H3, H4⟩, ⟨%d5, H5⟩, ⟨%d6, H6⟩, HS0, HS1, Hk⟩
    sl_exec (disch := first | exact hc0 | exact hc1)
    sl_step
    iapply Hk
    iframe
    isplitl [H5]; · iexists _; iexact H5
    isplitl [H6]; · iexists _; iexact H6
    isplitl [HS0]; · iexists _; iexact HS0
    iexists _; iexact HS1

end Cert.KernelIdeal.Hand

end
-- ==== Proof.NodeFrame.lean ====
import proofs.«168346_j773094113349_1_alg».proof.Proof.NodeRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (F) in
abbrev Pcs := List (View.Piece (Elt F) S1x1 .f32)

-- A view's pieces read back over junk: what the stores alone determine.
def rb (v : View sig .tc .vmem S1x1 .f32) (L : Pcs F) : Vec F S1x1 .f32 := v.read (Elt F) (v.writes (Elt F) v.junk L)

-- A run's four piece lists read back: outputs 5 and 6, then the two accumulators.
abbrev rd4 {P : Pcs F → Pcs F → Pcs F → Pcs F → Prop} (r : Σ' L5 L6 LS0, {LS1 // P L5 L6 LS0 LS1}) :=
  (rb VO1_5 r.1, rb VO1_6 r.2.1, rb VS1_0 r.2.2.1, rb VS1_1 r.2.2.2.1)

section
variable (c : Dev nD) (t : Fin cfg1.N)

-- The three case runs at point `t`: at its memrefs and input blocks, over the accumulators `p`.
abbrev runA (h0 : t.val = 0) (h1 : ¬t.val = 249) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).2 h0) (mt (hcond1_1 t).1 h1) (iblk1 V c 0 t) (iblk1 V c 1 t) (iblk1 V c 2 t) (iblk1 V c 3 t) (iblk1 V c 4 t)
abbrev runB (h0 : ¬t.val = 0) (h1 : ¬t.val = 249) (p : Vec F S1x1 .f32 × Vec F S1x1 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (mt (hcond1_0 t).1 h0) (mt (hcond1_1 t).1 h1) (iblk1 V c 0 t) (iblk1 V c 1 t) (iblk1 V c 2 t) (iblk1 V c 3 t) (iblk1 V c 4 t) p.1 p.2
abbrev runC (h0 : ¬t.val = 0) (h1 : t.val = 249) (p : Vec F S1x1 .f32 × Vec F S1x1 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (mt (hcond1_0 t).1 h0) ((hcond1_1 t).2 h1) (iblk1 V c 0 t) (iblk1 V c 1 t) (iblk1 V c 2 t) (iblk1 V c 3 t) (iblk1 V c 4 t) p.1 p.2
end

-- What outputs 5 and 6 and the two accumulators hold after point `n`: the point's case run over what the point before left.
def outsAt1 (c : Dev nD) : (n : ℕ) → n < cfg1.N → Vec F S1x1 .f32 × Vec F S1x1 .f32 × Vec F S1x1 .f32 × Vec F S1x1 .f32
  | 0, hn => rd4 (runA V c ⟨0, hn⟩ rfl (by decide : ¬(0 : ℕ) = 249))
  | n + 1, hn =>
    let p := (outsAt1 c n (Nat.lt_of_succ_lt hn)).2.2
    if h1 : n + 1 = 249 then rd4 (runC V c ⟨n + 1, hn⟩ n.succ_ne_zero h1 p) else rd4 (runB V c ⟨n + 1, hn⟩ n.succ_ne_zero h1 p)

section
variable (c : Dev nD) (t : Fin cfg1.N)

-- The accumulators as the point before `t` left them.
abbrev prev := (outsAt1 V c (t.val - 1) (Nat.lt_of_le_of_lt (Nat.sub_le _ _) t.isLt)).2.2

theorem outsAt1_A (h0 : t.val = 0) (h1 : ¬t.val = 249) : outsAt1 V c t.val t.isLt = rd4 (runA V c t h0 h1) := by
  obtain ⟨_ | n, hn⟩ := t
  · rfl
  · exact absurd h0 n.succ_ne_zero

theorem outsAt1_B (h0 : ¬t.val = 0) (h1 : ¬t.val = 249) : outsAt1 V c t.val t.isLt = rd4 (runB V c t h0 h1 (prev V c t)) := by
  obtain ⟨_ | n, hn⟩ := t
  · exact absurd rfl h0
  · exact (dif_neg h1).trans rfl

theorem outsAt1_C (h0 : ¬t.val = 0) (h1 : t.val = 249) : outsAt1 V c t.val t.isLt = rd4 (runC V c t h0 h1 (prev V c t)) := by
  obtain ⟨_ | n, hn⟩ := t
  · exact absurd rfl h0
  · exact (dif_pos h1).trans rfl
end

-- The invariant with the two accumulators at `p`.
def PhiAt (c : Dev nD) (p : Vec F S1x1 .f32 × Vec F S1x1 .f32) : sProp 𝕄 :=
  iprop(iprop(iprop(owns (c : Thread nD τ) scM1_0 fullShare p.1 ∗ owns (c : Thread nD τ) scM1_1 fullShare p.2) ∗ Rest1 (F := F) c) ∗ (∃ r, prngReg c r))

-- The invariant before position `n`: after the first point the accumulators hold what the point before left.
def PhiS1 (c : Dev nD) : (n : ℕ) → n ≤ cfg1.N → sProp 𝕄
  | 0, _ => Pipeline.ΦA spec1 c
  | n + 1, hn => PhiAt c (outsAt1 V c n hn).2.2

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) : PhiS1 V c n h = PhiAt c (outsAt1 V c (n - 1) (by omega)).2.2 := by
  cases n with
  | zero => exact absurd rfl hz
  | succ n => rfl

-- After the body at point `t` an input window holds its block, an output what the point's case run leaves.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

-- Stores whose pieces tile a buffer leave it at their readback, whatever it held.
theorem owns_rb (c : Dev nD) (M : Memref sig .tc .vmem S1x1 .f32) (v : View sig .tc .vmem S1x1 .f32) (L : Pcs F)
    (hL : View.Piece.tiledL L S1x1.size = true) :
    iprop(∃ f, M.view.loc (c : Thread nD τ) ↦[M.view.set]{fullShare} M.view.writes (Elt F) f L) ⊢ (owns (c : Thread nD τ) M fullShare (rb v L) : sProp 𝕄) := by
  iintro ⟨%f, H⟩
  unfold owns rb; iexists _; isplitr
  swap; · iexact H
  ipureintro; exact View.read_writes_of_cover _ _ _ _ _ (View.cover_of_tiledL L _ hL)

def bodyPre1 (c : Dev nD) (t : Fin cfg1.N) : sProp 𝕄 :=
  let P (w : Fin cfg1.W) : sProp 𝕄 := iprop(∃ d, owns (c : Thread nD τ) ((cfg1.win w).stage (cfg1.slots t w)) fullShare ((dat1 V c).before w t d))
  iprop((dat1 V c).Φ t.castSucc ∗ (dat1 V c).owesAt () t.castSucc ∗ P 0 ∗ P 1 ∗ P 2 ∗ P 3 ∗ P 4 ∗ P 5 ∗ P 6)

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem leavesLive (c : Dev nD) (t : Fin cfg1.N) (w : Fin cfg1.W) (X) (h : cfg1.idle w (grid1.coords t) = false) (hX : (dat1 V c).after w t = X) :
    (dat1 V c).leavesExact w t = owns (c : Thread nD τ) ((cfg1.win w).stage (cfg1.slots t w)) fullShare X := by
  subst hX; unfold Dat.leavesExact; rw [h]

set_option maxHeartbeats 1000000 in
-- The body at any point: the closed forms pick the point's case and that case's run applies; the invariant lends the accumulators and takes them back at the point's contents.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0_of V (dat1 V c) rfl fun _ => rfl, before1_1_of V (dat1 V c) rfl fun _ => rfl, before1_2_of V (dat1 V c) rfl fun _ => rfl,
    before1_3_of V (dat1 V c) rfl fun _ => rfl, before1_4_of V (dat1 V c) rfl fun _ => rfl]
  rw [show (dat1 V c).owesAt () t.succ = (dat1 V c).owesAt () t.castSucc from rfl,
    show (dat1 V c).Φ t.succ = PhiAt c (outsAt1 V c t.val t.isLt).2.2 from rfl,
    show (dat1 V c).Φ t.castSucc = PhiS1 V c t.val (Nat.le_of_lt t.isLt) from rfl,
    leavesLive V c t 0 (iblk1 V c 0 t) (liveAt1_0 t) rfl, leavesLive V c t 1 (iblk1 V c 1 t) (liveAt1_1 t) rfl, leavesLive V c t 2 (iblk1 V c 2 t) (liveAt1_2 t) rfl,
    leavesLive V c t 3 (iblk1 V c 3 t) (liveAt1_3 t) rfl, leavesLive V c t 4 (iblk1 V c 4 t) (liveAt1_4 t) rfl]

  by_cases h1 : t.val = 249
  · have h0 : ¬t.val = 0 := by omega
    have hc1 := (hcond1_1 t).2 h1
    have tt : View.Piece.tiledL (runC V c t h0 h1 (prev V c t)).1 S1x1.size = true ∧ View.Piece.tiledL (runC V c t h0 h1 (prev V c t)).2.1 S1x1.size = true ∧ View.Piece.tiledL (runC V c t h0 h1 (prev V c t)).2.2.1 S1x1.size = true ∧ View.Piece.tiledL (runC V c t h0 h1 (prev V c t)).2.2.2.1 S1x1.size = true :=
      ⟨by sl_kernel_rfl, by sl_kernel_rfl, by sl_kernel_rfl, by sl_kernel_rfl⟩
    rw [leavesLive V c t 5 (outsAt1 V c t.val t.isLt).1 (outLive1 5 (by decide) t hc1) rfl, leavesLive V c t 6 (outsAt1 V c t.val t.isLt).2.1 (outLive1 6 (by decide) t hc1) rfl,
      outsAt1_C V c t h0 h1, PhiS1_pos V c _ _ h0]
    unfold PhiAt rd4; dsimp only
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runC V c t h0 h1 _).2.2.2.2 Set.univ _)
    unfold ins1
    iframe H0 H1 H2 H3 H4 HS0 HS1
    isplitl [H5]; · iexists _; iexact H5
    isplitl [H6]; · iexists _; iexact H6
    iintro ⟨⟨H0, H1, H2, H3, H4⟩, H5, H6, HS0, HS1⟩
    ihave O5 := (owns_rb c _ VO1_5 _ tt.1) $$ H5
    ihave O6 := (owns_rb c _ VO1_6 _ tt.2.1) $$ H6
    ihave S0 := (owns_rb c _ VS1_0 _ tt.2.2.1) $$ HS0
    ihave S1 := (owns_rb c _ VS1_1 _ tt.2.2.2) $$ HS1
    iframe
  have hc1 := mt (hcond1_1 t).1 h1
  rw [Dat.leavesExact_idle (dat1 V c) 5 t (outIdle1 5 (by decide) t hc1).1 (outIdle1 5 (by decide) t hc1).2,
    Dat.leavesExact_idle (dat1 V c) 6 t (outIdle1 6 (by decide) t hc1).1 (outIdle1 6 (by decide) t hc1).2]
  by_cases h0 : t.val = 0
  on_goal 1 =>
    have tt : View.Piece.tiledL (runA V c t h0 h1).2.2.1 S1x1.size = true ∧ View.Piece.tiledL (runA V c t h0 h1).2.2.2.1 S1x1.size = true := ⟨by sl_kernel_rfl, by sl_kernel_rfl⟩
    rw [outsAt1_A V c t h0 h1, PhiS1_zero V c _ _ h0, PhiA1_eq]
  on_goal 2 =>
    have tt : View.Piece.tiledL (runB V c t h0 h1 (prev V c t)).2.2.1 S1x1.size = true ∧ View.Piece.tiledL (runB V c t h0 h1 (prev V c t)).2.2.2.1 S1x1.size = true := ⟨by sl_kernel_rfl, by sl_kernel_rfl⟩
    rw [outsAt1_B V c t h0 h1, PhiS1_pos V c _ _ h0]
  all_goals
    unfold PhiAt rd4; dsimp only
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    first | iapply ((runA V c t h0 h1).2.2.2.2 _ _ Set.univ _) | iapply ((runB V c t h0 h1 _).2.2.2.2 _ _ Set.univ _)
    unfold ins1
    iframe H0 H1 H2 H3 H4 H5 H6 HS0 HS1
    iintro ⟨⟨H0, H1, H2, H3, H4⟩, H5, H6, HS0, HS1⟩
    ihave S0 := (owns_rb c _ VS1_0 _ tt.1) $$ HS0
    ihave S1 := (owns_rb c _ VS1_1 _ tt.2) $$ HS1
    iframe S0 S1 HR Hg Ho H0 H1 H2 H3 H4
    isplitl [H5]; · iexists _; iexact H5
    iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.refl _

-- After any point but the first the accumulators' contents may be forgotten.
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiAt
  iintro ⟨⟨⟨HS0, HS1⟩, HR⟩, Hg⟩
  iframe HR Hg
  isplitl [HS0]
  · iexists _; iexact HS0
  · iexists _; iexact HS1

theorem hout1 (c : Dev nD) : (dat1 V c).Φ (Fin.last cfg1.N) ⊢ Pipeline.ΦA spec1 c :=
  Phi_out1 V c _ (by rw [Fin.val_last]; have : cfg1.N = 250 := N_1; omega)

end Cert.KernelIdeal.Hand

end
-- ==== Proof.MainRun.lean ====
import proofs.«168346_j773094113349_1_alg».proof.Proof.FoldA
import proofs.«168346_j773094113349_1_alg».proof.Proof.NodeFrame
import proofs.«168346_j773094113349_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- after the node region: its arrays at their final contents, every other buffer as entered
def W17 (c : Dev nD) : Valuation τ sig (Elt F) :=
  Pipeline.withArrays spec1 c (W16 m c) fun w => (dat1 (U16 m) c).arrAt w cfg1.N
theorem W17_arr (c : Dev nD) (w : Fin cfg1.W) :
    W17 m c (Proc.devRef .tc (Pipeline.arrRef spec1 w)) = (dat1 (U16 m) c).arrAt w cfg1.N :=
  Pipeline.withArrays_arr spec1 launch1.win.arr_inj c _ _ w
theorem W17_of_ne (c : Dev nD) (b : Ref sig .tc) (hb : ∀ w, Pipeline.arrRef spec1 w ≠ b) :
    W17 m c (Proc.devRef .tc b) = W16 m c (Proc.devRef .tc b) :=
  Pipeline.withArrays_of_ne spec1 c _ _ b hb
abbrev U17 (c : Dev nD) (b : Ref sig .tc) : Buf (Elt F) ((c : Thread nD τ).loc b) := W17 m c b
theorem hrest1 (c : Dev nD) (b : Ref sig .tc) (hb : b ∉ Finset.univ.image (Pipeline.arrRef spec1)) : U17 m c b = U16 m c b :=
  W17_of_ne m c b fun w e => hb (Finset.mem_image.mpr ⟨w, Finset.mem_univ _, e⟩)
abbrev W18 (c : Dev nD) := StableHlo.after hostOps2 (W17 m c)

-- a buffer that no host stretch writes and that is no array of the edge region holds its launch contents at the node region's entry
theorem W16_of_untouched (c : Dev nD) (r : Ref sig .tc) :
    (r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ (∀ w, Pipeline.arrRef spec0 w ≠ r) ∧ r ∉ hostOps1_W ∧ r ∉ hostOps1_1_W) →
    W16 m c (Proc.devRef .tc r) = m ((c : Thread nD τ).loc r)
  | ⟨h0, h1, h2, h3, h4, h5, h6, h7, h8, h9, h10, h11, h12, ha, h14, h15⟩ =>
  (StableHlo.after_of_writes_sub _ _ hostOps1_1_writes h15).trans <|
  (StableHlo.after_of_writes_sub _ _ hostOps1_writes h14).trans <|
  (W14_of_ne m c r ha).trans <|
  (V13_of m c r h12).trans <|
  (V12_of m c r h11).trans <|
  (V11_of m c r h10).trans <|
  (V10_of m c r h9).trans <|
  (V9_of m c r h8).trans <|
  (V8_of m c r h7).trans <|
  (V7_of m c r h6).trans <|
  (V6_of m c r h5).trans <|
  (V5_of m c r h4).trans <|
  (V4_of m c r h3).trans <|
  (V3_of m c r h2).trans <|
  (V2_of m c r h1).trans <|
  (V1_of m c r h0).trans <| rfl

theorem W16_main_arg0 (c : Dev nD) : W16 m c (Proc.devRef .tc main_arg0) = m ((c : Thread nD τ).loc main_arg0) :=
  W16_of_untouched m c main_arg0 (by decide)
theorem W16_main_arg2 (c : Dev nD) : W16 m c (Proc.devRef .tc main_arg2) = m ((c : Thread nD τ).loc main_arg2) :=
  W16_of_untouched m c main_arg2 (by decide)

def pdatsH : (p : Fin 2) → (c : Dev nD) → Dat τ (Elt F) Unit ℕ (UR sig nD τ) ℕ (Pipeline.pin (pcfgs (F := F)) adm p) c
  | ⟨0, _⟩ => fun c => dat0 (U13 m) c
  | ⟨1, _⟩ => fun c => dat1 (U16 m) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev HH (W : Dev nD → Valuation τ sig (Elt F)) (c : Dev nD) : sProp 𝕄 := iprop(StableHlo.held (c : Thread nD τ) (Pipeline.ucRefs τ sig) (W c) ∗ RH c)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W18 m c) ∗ ∃ r, prngReg c r)

theorem phiA_of_parts {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) win c)
      ⊢ (Pipeline.ΦA win c : sProp 𝕄) := by
  unfold Pipeline.ΦA
  iintro ⟨Hp, -, Hr⟩
  isplitl [Hr]; · iexact Hr
  iexact Hp

theorem parts_of_phiA {gr W : Nat} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest (Ix := Unit) (Name := ℕ) (U := UR sig nD τ) (Lvl := ℕ) win c) := by
  rw [Pipeline.ownSems0_none]; unfold Pipeline.ΦA
  iintro ⟨Hr, Hp⟩
  isplitl [Hp]; · iexact Hp
  isplitr; · iempintro
  iexact Hr

set_option backward.isDefEq.respectTransparency.types false in
-- both regions: entered at one boundary's contents, left at the next's
def regsH : Pipeline.RegionSeg (pcfgs (F := F)) adm (pdatsH m) () defs₀ 𝒱H LH lvH 0 × Pipeline.RegionSeg (pcfgs (F := F)) adm (pdatsH m) () defs₀ 𝒱H LH lvH 1 := by
  refine ⟨{
  win := launch0.win.to₀
  block_pos := launch0.block_pos
  stage_whole := launch0.stage_whole
  K := PEmpty
  osem k := k.elim
  ho := Pipeline.OwnSemFacts.none _
  hbody c := (body_obligation0 (U13 m) c).loose
  hwaits := Pipeline.hwaits_of_owed_zero _ _ _ _ LH lvH 0 fun _ _ => rfl
  pre := HH (W13 m)
  post := HH (W14 m)
  X c := iprop(∃ r, prngReg c r)
  Y c := iprop(∃ r, prngReg c r)
  Z c := Pipeline.unscopedRest (Ix := Unit) (Name := ℕ) (U := UR sig nD τ) (Lvl := ℕ) spec0 c (U13 m c)
  hentry := fun c =>
    have hsplit := Pipeline.arrays_of_unscopedBufs (p := 0) (pcfgs (F := F)) adm (pdatsH m) launch0.win launch0.arr_whole c
      ((pdatsH m 0 c).share_full fun _ => rfl) (U13 m c) fun _ => rfl
    ?_
  hin := fun c => phiA_of_parts spec0 c _
  hout := fun c => parts_of_phiA spec0 c
  hexit := fun c =>
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (U13 m c) (U14 m c) ((pdatsH m 0 c).arrAt · cfg0.N) (fun w => (W14_arr m c w).symm) (hrest0 m c)
    ?_ },
  {
  win := launch1.win.to₀
  block_pos := launch1.block_pos
  stage_whole := launch1.stage_whole
  K := PEmpty
  osem k := k.elim
  ho := Pipeline.OwnSemFacts.none _
  hbody c := (body_obligation1 (U16 m) c).loose
  hwaits := Pipeline.hwaits_of_owed_zero _ _ _ _ LH lvH 1 fun _ _ => rfl
  pre := HH (W16 m)
  post := HH (W17 m)
  X c := iprop(∃ r, prngReg c r)
  Y c := iprop(∃ r, prngReg c r)
  Z c := Pipeline.unscopedRest (Ix := Unit) (Name := ℕ) (U := UR sig nD τ) (Lvl := ℕ) spec1 c (U16 m c)
  hentry := fun c =>
    have hsplit := Pipeline.arrays_of_unscopedBufs (p := 1) (pcfgs (F := F)) adm (pdatsH m) launch1.win launch1.arr_whole c
      ((pdatsH m 1 c).share_full fun _ => rfl) (U16 m c) fun _ => rfl
    ?_
  hin := fun c => (phiA_of_parts spec1 c _).trans (hin1 (U16 m) c)
  hout := fun c => (hout1 (U16 m) c).trans (parts_of_phiA spec1 c)
  hexit := fun c =>
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (U16 m c) (U17 m c) ((pdatsH m 1 c).arrAt · cfg1.N) (fun w => (W17_arr m c w).symm) (hrest1 m c)
    ?_ }⟩ <;>
  first
  | rw [Pipeline.ownSems0_none]; rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  | rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsH : List (Pipeline.Seg (pcfgs (F := F)) adm (pdatsH m) () defs₀ 𝒱H LH lvH) :=
  [ .host (seg0 m 𝒱H LH lvH fun _ => RH),
    .host (seg1 m 𝒱H LH lvH fun _ => RH),
    .host (seg2 m 𝒱H LH lvH fun _ => RH),
    .host (seg3 m 𝒱H LH lvH fun _ => RH),
    .host (seg4 m 𝒱H LH lvH fun _ => RH),
    .host (seg5 m 𝒱H LH lvH fun _ => RH),
    .host (seg6 m 𝒱H LH lvH fun _ => RH),
    .host (seg7 m 𝒱H LH lvH fun _ => RH),
    .host (seg8 m 𝒱H LH lvH fun _ => RH),
    .host (seg9 m 𝒱H LH lvH fun _ => RH),
    .host (seg10 m 𝒱H LH lvH fun _ => RH),
    .host (seg11 m 𝒱H LH lvH fun _ => RH),
    .host (seg12 m 𝒱H LH lvH fun _ => RH),
    .region (regsH m).1,
    .host (hsegH hostOps1 hostOps1_sub hostOps1_fresh (W14 m)),
    .host (hsegH hostOps1_1 hostOps1_1_sub hostOps1_1_fresh (W15 m)),
    .region (regsH m).2,
    .host (hsegH hostOps2 hostOps2_sub hostOps2_fresh (W17 m)) ]

theorem main_runH (c : Dev nD) : main (F := F) c = Pipeline.Seg.run (segsH m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := HH (W0 m)) (Tₙ := TnH m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h => h)

theorem run_result : θ_run defs (onTc (τ := τ) (main (F := F))) ⟨m, fun _ => 0, ρ⟩ (fun r => ∀ c : Dev nD,
      r.2.mem ((c.tc : Thread nD τ).loc main_v90) = W18 m c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_ucH main_v90 (by decide)),
     (h c _ (mem_ucH main_arg0 (by decide))).trans <| (StableHlo.after_of_writes_sub hostOps2 _ hostOps2_writes (r := main_arg0) (by decide)).trans <|
       (W17_arr m c 0).trans <| ((dat1 (U16 m) c).arrAt_in 0 rfl _).trans <| (A_eq1 (U16 m) c 0).trans (W16_main_arg0 m c),
     (h c _ (mem_ucH main_arg1 (by decide))).trans <| (StableHlo.after_of_writes_sub hostOps2 _ hostOps2_writes (r := main_arg1) (by decide)).trans <|
       (W17_of_ne m c main_arg1 (by decide)).trans (W16_of_untouched m c main_arg1 (by decide)),
     (h c _ (mem_ucH main_arg2 (by decide))).trans <| (StableHlo.after_of_writes_sub hostOps2 _ hostOps2_writes (r := main_arg2) (by decide)).trans <|
       (W17_arr m c 1).trans <| ((dat1 (U16 m) c).arrAt_in 1 rfl _).trans <| (A_eq1 (U16 m) c 1).trans (W16_main_arg2 m c),
     (h c _ (mem_ucH main_arg3 (by decide))).trans <| (StableHlo.after_of_writes_sub hostOps2 _ hostOps2_writes (r := main_arg3) (by decide)).trans <|
       (W17_of_ne m c main_arg3 (by decide)).trans (W16_of_untouched m c main_arg3 (by decide))⟩) (run_all m ρ)

end Cert.KernelIdeal.Hand

end
-- ==== Proof.Spec.lean ====
import Idealize.ShloMosaic.PureOps.Ideal
import Idealize.ShloMosaic.Lib.ValueIdx
import Idealize.ShloMosaic.Lib.Decide

noncomputable section

namespace Cert.Spec

open Idealize.ShloMosaic Idealize.ShloMosaic.ValueIdx

abbrev SX : Shape := ⟨2, ![1000000, 6]⟩
abbrev SEA : Shape := ⟨2, ![8000000, 2]⟩
abbrev SEI : Shape := ⟨2, ![2, 8000000]⟩
abbrev ST : Shape := ⟨2, ![1, 6]⟩
abbrev S3v : Shape := ⟨1, ![3]⟩

/-- The factor from degrees to radians, as the one word both programs carry. -/
def degK : EReal := Ideal.ofBits .f32 0x3C8EFA35#32

/-- A node index word as a gather reads it: a negative word wraps once, then the signed value is clamped. -/
def wrapIdx (i : BitVec 32) : BitVec 32 := if i.slt 0#32 then i + 1000000#32 else i
def node (i : BitVec 32) : Fin 1000000 := ⟨min (wrapIdx i).toInt.toNat 999999, by omega⟩

/-- The angle difference, with the unit change after the difference (kernel) or before it (reference). -/
def dK (va0 va1 : EReal) : EReal := (va0 - va1) * degK

def dR (vai vaj : EReal) : EReal := vai * degK - vaj * degK

def pFwdK (vm0 va0 vm1 va1 g b : EReal) : EReal :=
  (vm0 * vm1) * (Ideal.cos (dK va0 va1) * g + Ideal.sin (dK va0 va1) * b)
def qFwdK (vm0 va0 vm1 va1 g b : EReal) : EReal :=
  (vm0 * vm1) * (Ideal.sin (dK va0 va1) * g - Ideal.cos (dK va0 va1) * b)
def pRevK (vm0 va0 vm1 va1 g b : EReal) : EReal :=
  (vm0 * vm1) * (Ideal.cos (dK va0 va1) * g - Ideal.sin (dK va0 va1) * b)
def qRevK (vm0 va0 vm1 va1 g b : EReal) : EReal :=
  (0 - vm0 * vm1) * (Ideal.sin (dK va0 va1) * g + Ideal.cos (dK va0 va1) * b)

def pR (vmi vai vmj vaj g b : EReal) : EReal :=
  (vmi * vmj) * (Ideal.cos (dR vai vaj) * g + Ideal.sin (dR vai vaj) * b)
def qR (vmi vai vmj vaj g b : EReal) : EReal :=
  (vmi * vmj) * (Ideal.sin (dR vai vaj) * g - Ideal.cos (dR vai vaj) * b)

variable (x : SX.Idx → EReal) (ea : SEA.Idx → EReal) (y : SX.Idx → EReal) (ei : SEI.Idx → BitVec 32)
variable (tm ts : ST.Idx → EReal)

def e0 (e : Fin 8000000) : BitVec 32 := ei (ix2 (0 : Fin 2) e)
def e1 (e : Fin 8000000) : BitVec 32 := ei (ix2 (1 : Fin 2) e)
def vmAt (i : BitVec 32) : EReal := x (ix2 (node i) (0 : Fin 6))
def vaAt (i : BitVec 32) : EReal := x (ix2 (node i) (1 : Fin 6))
def gAt (e : Fin 8000000) : EReal := ea (ix2 e (0 : Fin 2))
def bAt (e : Fin 8000000) : EReal := ea (ix2 e (1 : Fin 2))

/-- A scatter index word, read signed and not clamped, names node `n` (a word out of range names none). -/
def lands (i : BitVec 32) (n : Fin 1000000) : Prop := i.toInt = (n.val : Int)
instance (i : BitVec 32) (n : Fin 1000000) : Decidable (lands i n) := by unfold lands; infer_instance

def fwdK (k : Fin 2) (e : Fin 8000000) : EReal :=
  if k.val = 0 then pFwdK (vmAt x (e0 ei e)) (vaAt x (e0 ei e)) (vmAt x (e1 ei e)) (vaAt x (e1 ei e)) (gAt ea e) (bAt ea e)
  else qFwdK (vmAt x (e0 ei e)) (vaAt x (e0 ei e)) (vmAt x (e1 ei e)) (vaAt x (e1 ei e)) (gAt ea e) (bAt ea e)
def revK (k : Fin 2) (e : Fin 8000000) : EReal :=
  if k.val = 0 then pRevK (vmAt x (e0 ei e)) (vaAt x (e0 ei e)) (vmAt x (e1 ei e)) (vaAt x (e1 ei e)) (gAt ea e) (bAt ea e)
  else qRevK (vmAt x (e0 ei e)) (vaAt x (e0 ei e)) (vmAt x (e1 ei e)) (vaAt x (e1 ei e)) (gAt ea e) (bAt ea e)

def aggK (n : Fin 1000000) (k : Fin 2) : EReal :=
  (0 + ∑ e ∈ Finset.univ.filter (fun e : Fin 8000000 => lands (e0 ei e) n), fwdK x ea ei k e)
    + (0 + ∑ e ∈ Finset.univ.filter (fun e : Fin 8000000 => lands (e1 ei e) n), revK x ea ei k e)

def nodeSq (a0 a1 x2 x3 : EReal) : EReal := (a0 + x2) * (a0 + x2) + (a1 + x3) * (a1 + x3)

def nodeD (xv yv tmv tsv : EReal) : EReal :=
  (Ideal.div (xv - tmv) tsv - Ideal.div (yv - tmv) tsv) * (Ideal.div (xv - tmv) tsv - Ideal.div (yv - tmv) tsv)

/-- The block sums added one after another, from zero. -/
def accK (f : Fin 250 → EReal) : (n : ℕ) → EReal
  | 0 => 0
  | n + 1 => accK f n + (if h : n < 250 then f ⟨n, h⟩ else 0)

def rowOf (t : Fin 250) (r : Fin 4000) : Fin 1000000 := ⟨4000 * t.val + r.val, by have := t.isLt; have := r.isLt; omega⟩

def powerK : EReal :=
  accK (fun t => ∑ r : Fin 4000, nodeSq (aggK x ea ei (rowOf t r) 0) (aggK x ea ei (rowOf t r) 1)
    (x (ix2 (rowOf t r) (2 : Fin 6))) (x (ix2 (rowOf t r) (3 : Fin 6)))) 250
def mseK : EReal :=
  accK (fun t => ∑ r : Fin 4000, ∑ k : Fin 6, nodeD (x (ix2 (rowOf t r) k)) (y (ix2 (rowOf t r) k))
    (tm (ix2 (0 : Fin 1) k)) (ts (ix2 (0 : Fin 1) k))) 250

/-- The doubled edge list: the edges, then the edges with their ends exchanged. -/
def iR (e' : Fin 16000000) : BitVec 32 :=
  if h : e'.val < 8000000 then e0 ei ⟨e'.val, h⟩ else e1 ei ⟨e'.val - 8000000, by have := e'.isLt; omega⟩
def jR (e' : Fin 16000000) : BitVec 32 :=
  if h : e'.val < 8000000 then e1 ei ⟨e'.val, h⟩ else e0 ei ⟨e'.val - 8000000, by have := e'.isLt; omega⟩
def attrR (e' : Fin 16000000) : Fin 8000000 :=
  if h : e'.val < 8000000 then ⟨e'.val, h⟩ else ⟨e'.val - 8000000, by have := e'.isLt; omega⟩

def flowR (k : Fin 2) (e' : Fin 16000000) : EReal :=
  if k.val = 0 then pR (vmAt x (iR ei e')) (vaAt x (iR ei e')) (vmAt x (jR ei e')) (vaAt x (jR ei e')) (gAt ea (attrR e')) (bAt ea (attrR e'))
  else qR (vmAt x (iR ei e')) (vaAt x (iR ei e')) (vmAt x (jR ei e')) (vaAt x (jR ei e')) (gAt ea (attrR e')) (bAt ea (attrR e'))

def aggR (n : Fin 1000000) (k : Fin 2) : EReal :=
  0 + ∑ e' ∈ Finset.univ.filter (fun e' : Fin 16000000 => lands (iR ei e') n), flowR x ea ei k e'

def powerR : EReal :=
  0 + ∑ n : Fin 1000000, nodeSq (aggR x ea ei n 0) (aggR x ea ei n 1) (x (ix2 n (2 : Fin 6))) (x (ix2 n (3 : Fin 6)))
def mseR : EReal :=
  0 + ∑ i : SX.Idx, nodeD (x i) (y i) (tm (ix2 (0 : Fin 1) (i 1))) (ts (ix2 (0 : Fin 1) (i 1)))

def cN : EReal := Ideal.ofBits .f32 0x49742400#32
def c6N : EReal := Ideal.ofBits .f32 0x4AB71B00#32
def cHalf : EReal := Ideal.ofBits .f32 0x3F000000#32
def cTau : EReal := Ideal.ofBits .f32 0x3C23D70A#32

def outOf (P M : EReal) : S3v.Idx → EReal := fun i =>
  if (i 0).val = 0 then Ideal.div P cN
  else if (i 0).val = 1 then Ideal.div M c6N
  else cHalf * Ideal.div M c6N + cTau * Ideal.div P cN

def resultK : S3v.Idx → EReal := outOf (powerK x ea ei) (mseK x y tm ts)
def resultR : S3v.Idx → EReal := outOf (powerR x ea ei) (mseR x y tm ts)

abbrev S6 : Shape := ⟨1, ![6]⟩
abbrev S0 : Shape := ⟨0, ![]⟩

theorem sumsOverNodes : SX.ReducesTo [0] S6 := by decide
theorem scalarNonempty : 0 < S0.numel := by decide
theorem vecToRow : S6.BroadcastsInDim ST (![1] : Fin 1 → Fin ST.rank) := by decide
theorem scalarToRow : S0.BroadcastsInDim ST (![] : Fin 0 → Fin ST.rank) := by decide
theorem rowToAll : ST.BroadcastsInDim SX (![0, 1] : Fin 2 → Fin SX.rank) := by decide

/-- The column means of `y`: the column sums divided by the number of nodes. -/
def colMean (y : SX.Idx → EReal) : ST.Idx → EReal :=
  Host.divf (F := Ideal)
    (broadcastInDim ST ![1] vecToRow
      (Host.reduceAdd (F := Ideal) y (constant (F := Ideal) S0 .f32 0x00000000#32) sumsOverNodes scalarNonempty))
    (broadcastInDim ST ![] scalarToRow (constant (F := Ideal) S0 .f32 0x49742400#32))

/-- The number of nodes less one, as both programs form it. -/
def nLessOne : S0.Idx → EReal :=
  subf (F := Ideal) (constant (F := Ideal) S0 .f32 0x49742400#32) (sitofp (F := Ideal) .f32 (constantI S0 32 1#32))

/-- The deviations of `y` from its column means. -/
def colDev (y : SX.Idx → EReal) : SX.Idx → EReal :=
  subf (F := Ideal) (φ := .f32) y (broadcastInDim SX ![0, 1] rowToAll (colMean y))

/-- The column standard deviations of `y` with one degree of freedom removed: the root of the summed squared
    deviations over the number of nodes less one (not-a-number where that divisor is not positive). -/
def colStd (y : SX.Idx → EReal) : ST.Idx → EReal :=
  Host.sqrt (F := Ideal)
    (select
      (broadcastInDim ST ![] scalarToRow (cmpf (F := Ideal) .ogt nLessOne (constant (F := Ideal) S0 .f32 0x00000000#32)))
      (Host.divf (F := Ideal)
        (broadcastInDim ST ![1] vecToRow
          (Host.reduceAdd (F := Ideal) (mulf (F := Ideal) (φ := .f32) (colDev y) (colDev y))
            (constant (F := Ideal) S0 .f32 0x00000000#32) sumsOverNodes scalarNonempty))
        (broadcastInDim ST ![] scalarToRow nLessOne))
      (broadcastInDim ST ![] scalarToRow (id (constant (F := Ideal) S0 .f32 0x7FC00000#32))))

end Cert.Spec

end
-- ==== Proof.KArgs.lean ====
import proofs.«168346_j773094113349_1_alg».proof.Proof.FoldA
import proofs.«168346_j773094113349_1_alg».proof.Proof.Spec

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

abbrev xA : Cert.Spec.SX.Idx → EReal := m ((c : Thread nD τ).loc main_arg0)
abbrev eaA : Cert.Spec.SEA.Idx → EReal := m ((c : Thread nD τ).loc main_arg1)
abbrev yA : Cert.Spec.SX.Idx → EReal := m ((c : Thread nD τ).loc main_arg2)
abbrev eiA : Cert.Spec.SEI.Idx → BitVec 32 := m ((c : Thread nD τ).loc main_arg3)

def rcOf (e : Fin 8000000) : S63488x128.Idx :=
  ValueIdx.ix2 (⟨e.val / 128, by have := e.isLt; omega⟩ : Fin 63488) (⟨e.val % 128, Nat.mod_lt _ (by decide)⟩ : Fin 128)

end Cert.KernelIdeal.Hand

end
-- ==== Proof.EdgeValue.lean ====
import proofs.«168346_j773094113349_1_alg».proof.Proof.EdgeFrame
import proofs.«168346_j773094113349_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

-- An index within a unit-stride rectangle's range on every axis is in the rectangle's slice of a whole array.
theorem mem_slice_whole {κ : Kind} {b : Ref sig κ} {off size : Fin b.ty.shape.rank → Nat} {inb} {i : b.ty.shape.Idx}
    (h : ∀ a, off a ≤ i a ∧ (i a : Nat) < off a + size a) : i ∈ ((View.whole b).slice (Rect.unit off size inb)).set := by
  rw [View.set_slice_whole]; exact Rect.mem_set_unit.mpr h

section
variable (x0 x1 x2 x3 x4 x5 : Vec Ideal S2048x128 .f32) (j : S2048x128.Idx)

-- Each output buffer's one whole store, read at an index, is the specification's flow term of the six blocks there.
theorem out0_apply :
    out0_6 x0 x1 x2 x3 x4 x5 j = Cert.Spec.pFwdK (x0 j) (x1 j) (x2 j) (x3 j) (x4 j) (x5 j)
    ∧ out0_7 x0 x1 x2 x3 x4 x5 j = Cert.Spec.qFwdK (x0 j) (x1 j) (x2 j) (x3 j) (x4 j) (x5 j)
    ∧ out0_8 x0 x1 x2 x3 x4 x5 j = Cert.Spec.pRevK (x0 j) (x1 j) (x2 j) (x3 j) (x4 j) (x5 j)
    ∧ out0_9 x0 x1 x2 x3 x4 x5 j = Cert.Spec.qRevK (x0 j) (x1 j) (x2 j) (x3 j) (x4 j) (x5 j) := by
  simp only [out0_6, out0_7, out0_8, out0_9, View.canon_unit_zero (S := S2048x128) hz0, View.ld_unit_zero (S := S2048x128) hz0,
    k0_pay11, k0_pay12, k0_pay13, k0_pay14, k0_pay1, k0_pay2, k0_pay3, k0_pay4, k0_pay5, k0_pay6, k0_pay7, k0_pay8, k0_pay9, k0_pay10, shapeCast_self]
  refine ⟨rfl, rfl, rfl, ?_⟩
  show (Ideal.ofBits .f32 0x00000000#32 - x0 j * x2 j) * _ = (0 - x0 j * x2 j) * _
  rw [Ideal.ofBits_zero_f32]
  rfl

end

-- The output windows' index map (the inputs' is the same map), decided over the grid: block `(t, 0)` at point `t`.
theorem widx0 : ∀ t : Fin cfg0.N, win0_6.index t (0 : Fin 2) = t.val ∧ win0_6.index t (1 : Fin 2) = 0 :=
  (by decide +kernel : ∀ t : Fin grid0.N, _)

abbrev G0 (f : EReal → EReal → EReal → EReal → EReal → EReal → EReal) (c : Dev nD) : S63488x128.Idx → EReal :=
  fun i => f (V c main_v41 i) (V c main_v43 i) (V c main_v45 i) (V c main_v47 i) (V c main_v49 i) (V c main_v51 i)

-- The ten windows share one index map and one block shape, so a block index names the same array index in each.
theorem flushed0 (c : Dev nD) (t : Fin cfg0.N) :
    (dat0 (F := Ideal) V c).flushed 6 t = ((cfg0.win 6).blk t).view.read (Elt Ideal) (G0 V Cert.Spec.pFwdK c)
    ∧ (dat0 (F := Ideal) V c).flushed 7 t = ((cfg0.win 7).blk t).view.read (Elt Ideal) (G0 V Cert.Spec.qFwdK c)
    ∧ (dat0 (F := Ideal) V c).flushed 8 t = ((cfg0.win 8).blk t).view.read (Elt Ideal) (G0 V Cert.Spec.pRevK c)
    ∧ (dat0 (F := Ideal) V c).flushed 9 t = ((cfg0.win 9).blk t).view.read (Elt Ideal) (G0 V Cert.Spec.qRevK c) :=
  ⟨funext fun j => (congrFun (after0_6 V c t) _).trans (out0_apply _ _ _ _ _ _ _).1,
   funext fun j => (congrFun (after0_7 V c t) _).trans (out0_apply _ _ _ _ _ _ _).2.1,
   funext fun j => (congrFun (after0_8 V c t) _).trans (out0_apply _ _ _ _ _ _ _).2.2.1,
   funext fun j => (congrFun (after0_9 V c t) _).trans (out0_apply _ _ _ _ _ _ _).2.2.2⟩

-- Row `r` of an output array is in the block of point `r / 2048`.
theorem covers0 (i : S63488x128.Idx) :
    (∃ t : Fin cfg0.N, (cfg0.win 6).flush t = true ∧ i ∈ ((cfg0.win 6).blk t).view.set)
    ∧ (∃ t : Fin cfg0.N, (cfg0.win 7).flush t = true ∧ i ∈ ((cfg0.win 7).blk t).view.set)
    ∧ (∃ t : Fin cfg0.N, (cfg0.win 8).flush t = true ∧ i ∈ ((cfg0.win 8).blk t).view.set)
    ∧ (∃ t : Fin cfg0.N, (cfg0.win 9).flush t = true ∧ i ∈ ((cfg0.win 9).blk t).view.set) := by
  have hi0 : (i 0).val < 63488 := (i 0).isLt
  have hi1 : (i 1).val < 128 := (i 1).isLt
  have hN : cfg0.N = 31 := N_0
  obtain ⟨t, ht⟩ : ∃ t : Fin cfg0.N, t.val = (i 0).val / 2048 := ⟨⟨(i 0).val / 2048, by rw [hN]; omega⟩, rfl⟩
  obtain ⟨e0, e1⟩ := widx0 t
  have h : ∀ a : Fin 2, win0_6.index t a * S2048x128.size a ≤ (i a).val ∧ (i a).val < win0_6.index t a * S2048x128.size a + S2048x128.size a :=
    Fin.forall_fin_two.mpr ⟨by rw [e0, ht]; show _ * 2048 ≤ _ ∧ _ < _ * 2048 + 2048; omega, by rw [e1]; show 0 * 128 ≤ _ ∧ _ < 0 * 128 + 128; omega⟩
  exact ⟨⟨t, flush0_6 t, mem_slice_whole h⟩, ⟨t, flush0_7 t, mem_slice_whole h⟩, ⟨t, flush0_8 t, mem_slice_whole h⟩, ⟨t, flush0_9 t, mem_slice_whole h⟩⟩

theorem final0_6 (c : Dev nD) : (dat0 (F := Ideal) V c).arrAt 6 cfg0.N = fun i => Cert.Spec.pFwdK (V c main_v41 i) (V c main_v43 i) (V c main_v45 i) (V c main_v47 i) (V c main_v49 i) (V c main_v51 i) :=
  (dat0 (F := Ideal) V c).arrAt_eq_of_cover 6 (G0 V Cert.Spec.pFwdK c) (fun t _ => (flushed0 V c t).1) fun i => (covers0 i).1

theorem final0_7 (c : Dev nD) : (dat0 (F := Ideal) V c).arrAt 7 cfg0.N = fun i => Cert.Spec.qFwdK (V c main_v41 i) (V c main_v43 i) (V c main_v45 i) (V c main_v47 i) (V c main_v49 i) (V c main_v51 i) :=
  (dat0 (F := Ideal) V c).arrAt_eq_of_cover 7 (G0 V Cert.Spec.qFwdK c) (fun t _ => (flushed0 V c t).2.1) fun i => (covers0 i).2.1

theorem final0_8 (c : Dev nD) : (dat0 (F := Ideal) V c).arrAt 8 cfg0.N = fun i => Cert.Spec.pRevK (V c main_v41 i) (V c main_v43 i) (V c main_v45 i) (V c main_v47 i) (V c main_v49 i) (V c main_v51 i) :=
  (dat0 (F := Ideal) V c).arrAt_eq_of_cover 8 (G0 V Cert.Spec.pRevK c) (fun t _ => (flushed0 V c t).2.2.1) fun i => (covers0 i).2.2.1

theorem final0_9 (c : Dev nD) : (dat0 (F := Ideal) V c).arrAt 9 cfg0.N = fun i => Cert.Spec.qRevK (V c main_v41 i) (V c main_v43 i) (V c main_v45 i) (V c main_v47 i) (V c main_v49 i) (V c main_v51 i) :=
  (dat0 (F := Ideal) V c).arrAt_eq_of_cover 9 (G0 V Cert.Spec.qRevK c) (fun t _ => (flushed0 V c t).2.2.2) fun i => (covers0 i).2.2.2

end Cert.KernelIdeal.Hand
-- ==== Proof.KHostPre.lean ====
import proofs.«168346_j773094113349_1_alg».proof.Proof.KArgs
import Idealize.ShloMosaic.Lib.StableHlo.Run
import Idealize.ShloMosaic.Lib.StableHlo.Predicate
import Idealize.ShloMosaic.Lib.Pipeline.Value
import Idealize.ShloMosaic.Lib.KernelVsHost
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.StableHlo

variable (m : (ℓ : Loc nD τ sig) → Buf (Elt Ideal) ℓ) (c : Dev nD)

section Ops
variable {α : Type}

theorem rowVec_apply {N : Nat} (r : Fin 2) (off : Fin 2 → Nat) (hoff0 : off 0 = r.val) (hoff1 : off 1 = 0)
    (x : (⟨2, ![2, N]⟩ : Shape).Idx → α)
    (h1 : (⟨2, ![2, N]⟩ : Shape).Slices off ⟨2, ![1, N]⟩) (h2 : (⟨2, ![1, N]⟩ : Shape).ShapeCasts ⟨1, ![N]⟩)
    (j : (⟨1, ![N]⟩ : Shape).Idx) :
    shapeCast ⟨1, ![N]⟩ (extractStridedSlice ⟨2, ![1, N]⟩ off x h1) h2 j = x (ix2 r (j 0)) := by
  refine (shapeCast_apply _ h2 j (ix2 (0 : Fin 1) (j 0)) (by
    rw [Shape.rowMajor_val_two, Shape.rowMajor_val_one]
    show 0 * N + (j 0).val = (j 0).val
    omega)).trans ?_
  exact extractStridedSlice_apply off x h1 _ (ix2 r (j 0)) (fun a => match a with
    | ⟨0, _⟩ => by show r.val = off 0 + 0; omega
    | ⟨1, _⟩ => by show (j 0).val = off 1 + (j 0).val; omega)

theorem colVec_apply {N C : Nat} (k : Fin C) (off : Fin 2 → Nat) (hoff0 : off 0 = 0) (hoff1 : off 1 = k.val)
    (x : (⟨2, ![N, C]⟩ : Shape).Idx → α)
    (h1 : (⟨2, ![N, C]⟩ : Shape).Slices off ⟨2, ![N, 1]⟩) (h2 : (⟨2, ![N, 1]⟩ : Shape).ShapeCasts ⟨1, ![N]⟩)
    (j : (⟨1, ![N]⟩ : Shape).Idx) :
    shapeCast ⟨1, ![N]⟩ (extractStridedSlice ⟨2, ![N, 1]⟩ off x h1) h2 j = x (ix2 (j 0) k) := by
  refine (shapeCast_apply _ h2 j (ix2 (j 0) (0 : Fin 1)) (by
    rw [Shape.rowMajor_val_two, Shape.rowMajor_val_one]
    show (j 0).val * 1 + 0 = (j 0).val
    omega)).trans ?_
  exact extractStridedSlice_apply off x h1 _ (ix2 (j 0) k) (fun a => match a with
    | ⟨0, _⟩ => by show (j 0).val = off 0 + (j 0).val; omega
    | ⟨1, _⟩ => by show k.val = off 1 + 0; omega)

theorem colMat_apply {N : Nat} (dims : Fin 1 → Fin 2) (hd : dims 0 = 0)
    (h : (⟨1, ![N]⟩ : Shape).BroadcastsInDim ⟨2, ![N, 1]⟩ dims) (hN : N ≠ 1)
    (v : (⟨1, ![N]⟩ : Shape).Idx → α) (j : (⟨2, ![N, 1]⟩ : Shape).Idx) :
    broadcastInDim ⟨2, ![N, 1]⟩ dims h v j = v (ix1 (j 0)) := by
  refine broadcastInDim_apply dims h v j (ix1 (j 0)) (fun a => match a with
    | ⟨0, _⟩ => by
      show (j 0).val = if N = 1 then 0 else (j (dims 0)).val
      rw [if_neg hN, hd])

theorem wrap_apply {s : Shape} (dims : Fin 0 → Fin s.rank) (h : (⟨0, ![]⟩ : Shape).BroadcastsInDim s dims)
    (e : IVec s 32) (j : s.Idx) :
    select (cmpi .slt e (broadcastInDim s dims h (constantI ⟨0, ![]⟩ 32 0#32)))
      (addi e (broadcastInDim s dims h (constantI ⟨0, ![]⟩ 32 1000000#32))) e j = Cert.Spec.wrapIdx (e j) := by
  show Scalar.select (IntOp.cmpi .slt (e j) 0#32) (IntOp.addi (e j) 1000000#32) (e j) = _
  unfold Cert.Spec.wrapIdx IntOp.cmpi IntOp.addi Scalar.select
  cases hs : (e j).slt 0#32 <;> simp

end Ops

abbrev eiRow (ei : IVec S2x8000000 32) (off : Fin 2 → Nat) (h : S2x8000000.Slices off S1x8000000) : IVec S8000000 32 :=
  shapeCast S8000000 (extractStridedSlice S1x8000000 off ei h) shapeCasts_S1x8000000_S8000000

abbrev idxCol (v : IVec S8000000 32) : IVec S8000000x1 32 :=
  broadcastInDim S8000000x1 ![0] bcast_S8000000_S8000000x1_0
    (select (cmpi .slt v (broadcastInDim S8000000 ![] bcast_S_S8000000 (constantI S_ 32 0#32)))
      (addi v (broadcastInDim S8000000 ![] bcast_S_S8000000 (constantI S_ 32 1000000#32))) v)

abbrev xCol (x : S1000000x6.Idx → EReal) (off : Fin 2 → Nat) (h : S1000000x6.Slices off S1000000x1) :
    S1000000.Idx → EReal :=
  shapeCast S1000000 (extractStridedSlice S1000000x1 off x h) shapeCasts_S1000000x1_S1000000

abbrev eaCol (ea : S8000000x2.Idx → EReal) (off : Fin 2 → Nat) (h : S8000000x2.Slices off S8000000x1) :
    S8000000.Idx → EReal :=
  shapeCast S8000000 (extractStridedSlice S8000000x1 off ea h) shapeCasts_S8000000x1_S8000000

abbrev gathered (x : S1000000x6.Idx → EReal) (offX : Fin 2 → Nat) (hX : S1000000x6.Slices offX S1000000x1)
    (ei : IVec S2x8000000 32) (offE : Fin 2 → Nat) (hE : S2x8000000.Slices offE S1x8000000) : S8000000.Idx → EReal :=
  Host.gather gather_S1000000_S8000000x1_S8000000_n_0_n_n_0_1_1 (xCol x offX hX) (idxCol (eiRow ei offE hE))

abbrev padRows (g : S8000000.Idx → EReal) : S63488x128.Idx → EReal :=
  shapeCast S63488x128
    (pad S8126464 ![0] ![126464] ![0] g (sitofp (F := Ideal) .f32 (constantI S_ 32 0#32)) pads_S8000000_S8126464_01264640 h_S_)
    shapeCasts_S8126464_S63488x128

-- An edge's entry lies before the padding, at the edge's own flat position.
theorem padRows_apply (g : S8000000.Idx → EReal) (e : Fin 8000000) : padRows g (rcOf e) = g (ix1 e) :=
  (shapeCast_apply _ shapeCasts_S8126464_S63488x128 (rcOf e) (ix1 (⟨e.val, by have := e.isLt; omega⟩ : Fin 8126464)) (by
    rw [Shape.rowMajor_val_one, Shape.rowMajor_val_two]
    show e.val = e.val / 128 * 128 + e.val % 128
    omega)).trans
  (pad_apply_of_inside _ _ _ g _ pads_S8000000_S8126464_01264640 h_S_ _ (ix1 e) fun a => match a with
    | ⟨0, _⟩ => by show e.val = 0 + e.val * (0 + 1); omega)

-- A gathered array's entry at an edge: feature `k` of the node that row `r` of the end nodes names for that edge.
theorem gathered_at {A : S63488x128.Idx → EReal} (x : S1000000x6.Idx → EReal) (ei : IVec S2x8000000 32) (r : Fin 2) (k : Fin 6)
    {offX : Fin 2 → Nat} {hX : S1000000x6.Slices offX S1000000x1} {offE : Fin 2 → Nat} {hE : S2x8000000.Slices offE S1x8000000}
    (h : A = padRows (gathered x offX hX ei offE hE)) (hX0 : offX 0 = 0) (hX1 : offX 1 = k.val) (hE0 : offE 0 = r.val) (hE1 : offE 1 = 0)
    (e : Fin 8000000) : A (rcOf e) = x (ix2 (Cert.Spec.node (ei (ix2 r e))) k) := by
  rw [h, padRows_apply]
  have hidx : idxCol (eiRow ei offE hE) (Predicate.ixP e) = Cert.Spec.wrapIdx (ei (ix2 r e)) := by
    refine (colMat_apply (N := 8000000) ![0] rfl bcast_S8000000_S8000000x1_0 (by decide) _ (Predicate.ixP e)).trans ?_
    refine (wrap_apply (s := S8000000) ![] bcast_S_S8000000 (eiRow ei offE hE) (ix1 e)).trans ?_
    exact congrArg Cert.Spec.wrapIdx (rowVec_apply r offE hE0 hE1 ei hE shapeCasts_S1x8000000_S8000000 (ix1 e))
  rw [show ix1 e = Shape.Idx.ofFin e from funext fun d => match d with | ⟨0, _⟩ => rfl]
  refine (Predicate.gather_take gather_S1000000_S8000000x1_S8000000_n_0_n_n_0_1_1 rfl rfl rfl rfl _ _ e (by decide)).trans ?_
  refine (colVec_apply k offX hX0 hX1 x hX shapeCasts_S1000000x1_S1000000 _).trans ?_
  refine congrArg x (congrArg (fun n => ix2 n k) (Fin.ext ?_))
  show min (idxCol (eiRow ei offE hE) (Predicate.ixP e)).toInt.toNat (1000000 - 1) = min (Cert.Spec.wrapIdx (ei (ix2 r e))).toInt.toNat 999999
  rw [hidx]

theorem eaCol_at {A : S63488x128.Idx → EReal} (ea : S8000000x2.Idx → EReal) (k : Fin 2) {off : Fin 2 → Nat}
    {hs : S8000000x2.Slices off S8000000x1} (h : A = padRows (eaCol ea off hs)) (h0 : off 0 = 0) (h1 : off 1 = k.val) (e : Fin 8000000) :
    A (rcOf e) = ea (ix2 e k) := by
  rw [h, padRows_apply]
  exact colVec_apply k off h0 h1 ea hs shapeCasts_S8000000x1_S8000000 (ix1 e)

set_option maxHeartbeats 1600000 in
theorem W13_v41 : (U13 m c main_v41 : S63488x128.Idx → EReal)
    = padRows (gathered (xA m c) ![0, 0] slices_S1000000x6_S1000000x1_0_0 (eiA m c) ![0, 0] slices_S2x8000000_S1x8000000_0_0) := by
  dsimp only [U13, W13, W12, W11, W10, W9, W8, W7, W6, W5, W4, W3, W2, W1, W0]; after_results; rfl

set_option maxHeartbeats 1600000 in
theorem W13_v43 : (U13 m c main_v43 : S63488x128.Idx → EReal)
    = padRows (gathered (xA m c) ![0, 1] slices_S1000000x6_S1000000x1_0_1 (eiA m c) ![0, 0] slices_S2x8000000_S1x8000000_0_0) := by
  dsimp only [U13, W13, W12, W11, W10, W9, W8, W7, W6, W5, W4, W3, W2, W1, W0]; after_results; rfl

set_option maxHeartbeats 1600000 in
theorem W13_v45 : (U13 m c main_v45 : S63488x128.Idx → EReal)
    = padRows (gathered (xA m c) ![0, 0] slices_S1000000x6_S1000000x1_0_0 (eiA m c) ![1, 0] slices_S2x8000000_S1x8000000_1_0) := by
  dsimp only [U13, W13, W12, W11, W10, W9, W8, W7, W6, W5, W4, W3, W2, W1, W0]; after_results; rfl

set_option maxHeartbeats 1600000 in
theorem W13_v47 : (U13 m c main_v47 : S63488x128.Idx → EReal)
    = padRows (gathered (xA m c) ![0, 1] slices_S1000000x6_S1000000x1_0_1 (eiA m c) ![1, 0] slices_S2x8000000_S1x8000000_1_0) := by
  dsimp only [U13, W13, W12, W11, W10, W9, W8, W7, W6, W5, W4, W3, W2, W1, W0]; after_results; rfl

set_option maxHeartbeats 1600000 in
theorem W13_v49 : (U13 m c main_v49 : S63488x128.Idx → EReal)
    = padRows (eaCol (eaA m c) ![0, 0] slices_S8000000x2_S8000000x1_0_0) := by
  dsimp only [U13, W13, W12, W11, W10, W9, W8, W7, W6, W5, W4, W3, W2, W1, W0]; after_results; rfl

set_option maxHeartbeats 1600000 in
theorem W13_v51 : (U13 m c main_v51 : S63488x128.Idx → EReal)
    = padRows (eaCol (eaA m c) ![0, 1] slices_S8000000x2_S8000000x1_0_1) := by
  dsimp only [U13, W13, W12, W11, W10, W9, W8, W7, W6, W5, W4, W3, W2, W1, W0]; after_results; rfl

end Cert.KernelIdeal.Hand

end
-- ==== Proof.KEdge.lean ====
import proofs.«168346_j773094113349_1_alg».proof.Proof.EdgeValue
import proofs.«168346_j773094113349_1_alg».proof.Proof.KArgs
import proofs.«168346_j773094113349_1_alg».proof.Proof.KHostPre

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

-- An array that is `f` of the six input arrays entry by entry is, at an edge's entry, `f` of that edge's data.
theorem out_at {A : S63488x128.Idx → EReal} {f : EReal → EReal → EReal → EReal → EReal → EReal → EReal}
    (h : ∀ i, A i = f (U13 m c main_v41 i) (U13 m c main_v43 i) (U13 m c main_v45 i) (U13 m c main_v47 i) (U13 m c main_v49 i) (U13 m c main_v51 i))
    (e : Fin 8000000) :
    A (rcOf e) = f (Cert.Spec.vmAt (xA m c) (Cert.Spec.e0 (eiA m c) e)) (Cert.Spec.vaAt (xA m c) (Cert.Spec.e0 (eiA m c) e))
      (Cert.Spec.vmAt (xA m c) (Cert.Spec.e1 (eiA m c) e)) (Cert.Spec.vaAt (xA m c) (Cert.Spec.e1 (eiA m c) e))
      (Cert.Spec.gAt (eaA m c) e) (Cert.Spec.bAt (eaA m c) e) := by
  rw [h, gathered_at _ _ 0 0 (W13_v41 m c) rfl rfl rfl rfl e, gathered_at _ _ 0 1 (W13_v43 m c) rfl rfl rfl rfl e,
    gathered_at _ _ 1 0 (W13_v45 m c) rfl rfl rfl rfl e, gathered_at _ _ 1 1 (W13_v47 m c) rfl rfl rfl rfl e,
    eaCol_at _ 0 (W13_v49 m c) rfl rfl e, eaCol_at _ 1 (W13_v51 m c) rfl rfl e]
  rfl

theorem edge_out (k : Fin 2) (e : Fin 8000000) :
    (if k.val = 0 then (W14 m c (Proc.devRef .tc main_v52_0) : S63488x128.Idx → EReal) (rcOf e) else (W14 m c (Proc.devRef .tc main_v52_1) : S63488x128.Idx → EReal) (rcOf e)) = Cert.Spec.fwdK (xA m c) (eaA m c) (eiA m c) k e := by
  unfold Cert.Spec.fwdK
  exact ite_congr rfl (fun _ => out_at m c (congrFun ((W14_arr m c 6).trans (final0_6 (U13 m) c))) e)
    fun _ => out_at m c (congrFun ((W14_arr m c 7).trans (final0_7 (U13 m) c))) e

theorem edge_out_rev (k : Fin 2) (e : Fin 8000000) :
    (if k.val = 0 then (W14 m c (Proc.devRef .tc main_v52_2) : S63488x128.Idx → EReal) (rcOf e) else (W14 m c (Proc.devRef .tc main_v52_3) : S63488x128.Idx → EReal) (rcOf e)) = Cert.Spec.revK (xA m c) (eaA m c) (eiA m c) k e := by
  unfold Cert.Spec.revK
  exact ite_congr rfl (fun _ => out_at m c (congrFun ((W14_arr m c 8).trans (final0_8 (U13 m) c))) e)
    fun _ => out_at m c (congrFun ((W14_arr m c 9).trans (final0_9 (U13 m) c))) e

end Cert.KernelIdeal.Hand

end
-- ==== Proof.KHostStats.lean ====
import proofs.«168346_j773094113349_1_alg».proof.Proof.MainRun
import proofs.«168346_j773094113349_1_alg».proof.Proof.KArgs
import Idealize.ShloMosaic.Lib.StableHlo.Run
import Idealize.ShloMosaic.Lib.Pipeline.Frame

noncomputable section

namespace Cert.KernelIdeal.Hand

open Cert.KernelIdeal Cert.KernelIdeal.Gen
open Idealize.ShloMosaic Idealize.ShloMosaic.TcCoe Idealize.SL.Sem Idealize.ShloMosaic.StableHlo

theorem ofBuf_toBuf {T : BufTy} {Val : EltTy → Type} (x : TRef sig T) (v : T.Contents Val) : x.ofBuf (x.toBuf v) = v := by
  obtain ⟨r, h, h2, h3⟩ := x
  subst h
  rfl

abbrev xArg2 : TRef sig ⟨S1000000x6, .f32⟩ := .of main_arg2
abbrev xSq : TRef sig ⟨S1000000x6, .f32⟩ := .of main_call6_call0_v6
abbrev xOne : TRef sig ⟨S_, .i32⟩ := .of main_c_16
abbrev xStd : TRef sig ⟨S1x6, .f32⟩ := .of main_v78

theorem ofBuf_arg2 (t : main_arg2.ty.Contents (Elt Ideal)) : xArg2.ofBuf t = t := rfl
theorem ofBuf_one (t : main_c_16.ty.Contents (Elt Ideal)) : xOne.ofBuf t = t := rfl
theorem ofBuf_std (t : main_v78.ty.Contents (Elt Ideal)) : xStd.ofBuf t = t := rfl

-- A list of operations run whole is its first `n` run, then the rest.
theorem after_split (ops : List (HloOp τ sig (Elt Ideal))) (n : Nat) (V : Valuation τ sig (Elt Ideal)) :
    after ops V = after (ops.drop n) (after (ops.take n) V) := by
  rw [← after_append, List.take_append_drop]

theorem take_writes {ops : List (HloOp τ sig (Elt Ideal))} {W : Finset (DevRef τ sig)} (h : ops.Forall fun op => op.writes ⊆ W) (n : Nat) :
    (ops.take n).Forall fun op => op.writes ⊆ W :=
  List.forall_iff_forall_mem.mpr fun op hop => List.forall_iff_forall_mem.mp h op (List.mem_of_mem_take hop)

abbrev headOps : List (HloOp τ sig (Elt Ideal)) := (hostOps1 (F := Ideal)).take 23
abbrev meanOps : List (HloOp τ sig (Elt Ideal)) := (hostOps1 (F := Ideal)).drop 23

set_option maxRecDepth 4096 in
theorem read_v77 (V : Valuation τ sig (Elt Ideal)) :
    after meanOps V (Proc.devRef .tc main_v77) = Cert.Spec.colMean (V (Proc.devRef .tc main_arg2)) := by
  simp only [meanOps, hostOps1, List.drop_succ_cons, List.drop_zero]
  after_results
  rfl

set_option maxRecDepth 4096 in
theorem read_c16 (V : Valuation τ sig (Elt Ideal)) :
    after meanOps V (Proc.devRef .tc main_c_16) = constantI S_ 32 1#32 := by
  simp only [meanOps, hostOps1, List.drop_succ_cons, List.drop_zero]
  after_results

abbrev devOps : List (HloOp τ sig (Elt Ideal)) := (hostOps1_1 (F := Ideal)).take 9
abbrev tailOps : List (HloOp τ sig (Elt Ideal)) := (hostOps1_1 (F := Ideal)).drop 9

set_option maxRecDepth 4096 in
-- The call's first nine operations square the deviations from the column means.
theorem read_v6 (V : Valuation τ sig (Elt Ideal)) :
    xSq.ofBuf (after devOps V (Proc.devRef .tc main_call6_call0_v6))
      = mulf (F := Ideal) (φ := .f32) (Cert.Spec.colDev (V (Proc.devRef .tc main_arg2))) (Cert.Spec.colDev (V (Proc.devRef .tc main_arg2))) := by
  simp only [devOps, hostOps1_1, List.take_succ_cons, List.take_zero]
  after_results
  simp only [ofBuf_toBuf]
  rw [ofBuf_arg2]
  generalize V (Proc.devRef .tc main_arg2) = y
  rfl

set_option maxRecDepth 4096 in
-- Its other fifteen, given the squared deviations of `y` and the integer one, make the standard-deviation row of `y`.
theorem read_v78 (V : Valuation τ sig (Elt Ideal)) (y : Cert.Spec.SX.Idx → EReal)
    (hq : xSq.ofBuf (V (Proc.devRef .tc main_call6_call0_v6)) = mulf (F := Ideal) (φ := .f32) (Cert.Spec.colDev y) (Cert.Spec.colDev y))
    (h1 : xOne.ofBuf (V (Proc.devRef .tc main_c_16)) = constantI S_ 32 1#32) :
    xStd.ofBuf (after tailOps V (Proc.devRef .tc main_v78)) = Cert.Spec.colStd y := by
  simp only [tailOps, hostOps1_1, List.drop_succ_cons, List.drop_zero]
  after_results
  simp only [ofBuf_toBuf]
  rw [hq, h1]
  rfl

variable (m : (ℓ : Loc nD τ sig) → Buf (Elt Ideal) ℓ) (c : Dev nD)

theorem W15_arg2 : W15 m c (Proc.devRef .tc main_arg2) = m ((c : Thread nD τ).loc main_arg2) :=
  (after_of_writes_sub hostOps1_1 (W15 m c) hostOps1_1_writes (by decide)).symm.trans (W16_main_arg2 m c)
theorem W14_arg2 : W14 m c (Proc.devRef .tc main_arg2) = m ((c : Thread nD τ).loc main_arg2) :=
  (after_of_writes_sub hostOps1 (W14 m c) hostOps1_writes (by decide)).symm.trans (W15_arg2 m c)

theorem mid_v77 : (W16 m c (Proc.devRef .tc main_v77) : S1x6.Idx → EReal) = Cert.Spec.colMean (yA m c) := by
  have h1 : W16 m c (Proc.devRef .tc main_v77) = W15 m c (Proc.devRef .tc main_v77) :=
    after_of_writes_sub hostOps1_1 (W15 m c) hostOps1_1_writes (by decide)
  have h2 : W15 m c (Proc.devRef .tc main_v77) = after meanOps (after headOps (W14 m c)) (Proc.devRef .tc main_v77) :=
    congrFun (after_split hostOps1 23 (W14 m c)) _
  rw [h1, h2, read_v77, after_of_writes_sub headOps (W14 m c) (take_writes hostOps1_writes 23) (by decide), W14_arg2]

theorem W15_c16 : W15 m c (Proc.devRef .tc main_c_16) = constantI S_ 32 1#32 :=
  (congrFun (after_split hostOps1 23 (W14 m c)) _).trans (read_c16 _)

theorem mid_v78 : (W16 m c (Proc.devRef .tc main_v78) : S1x6.Idx → EReal) = Cert.Spec.colStd (yA m c) := by
  have h0 : W16 m c (Proc.devRef .tc main_v78) = after tailOps (after devOps (W15 m c)) (Proc.devRef .tc main_v78) :=
    congrFun (after_split hostOps1_1 9 (W15 m c)) _
  refine (ofBuf_std _).symm.trans ?_
  rw [h0]
  refine read_v78 _ (yA m c) ?_ ?_
  · rw [read_v6, W15_arg2]
  · rw [after_of_writes_sub devOps (W15 m c) (take_writes hostOps1_1_writes 9) (by decide), W15_c16, ofBuf_one]

end Cert.KernelIdeal.Hand

end
-- ==== Proof.ScatterRows.lean ====
import Idealize.ShloMosaic.PureOps.Ideal
import Idealize.ShloMosaic.Lib.ValueIdx
import Idealize.ShloMosaic.Lib.IdealHost

noncomputable section

open scoped BigOperators

namespace Cert.ScatterRows

open Idealize.ShloMosaic Idealize.ShloMosaic.ValueIdx

variable {N E w : Nat}

abbrev rowsDims (N E : Nat) (wf : ScatterDims.WF ⟨2, ![N, 2]⟩ ⟨2, ![E, 1]⟩ ⟨2, ![E, 2]⟩ [1] [0] [0] 1) :
    ScatterDims ⟨2, ![N, 2]⟩ ⟨2, ![E, 1]⟩ ⟨2, ![E, 2]⟩ where
  updateWindowDims := [1]
  insertedWindowDims := [0]
  scatterDimsToOperandDims := [0]
  indexVectorDim := 1
  wf := wf

variable (wf : ScatterDims.WF ⟨2, ![N, 2]⟩ ⟨2, ![E, 1]⟩ ⟨2, ![E, 2]⟩ [1] [0] [0] 1)

-- Update (e, k') is aimed at row idx[e] (read signed) ...
theorem rows_coord0 (idx : IVec ⟨2, ![E, 1]⟩ w) (e : Fin E) (k' : Fin 2) :
    (rowsDims N E wf).start (ix2 e k') idx (0 : Fin 2) + ((rowsDims N E wf).window (ix2 e k') (0 : Fin 2) : Int)
      = (idx (ix2 e (0 : Fin 1))).toInt := by
  unfold ScatterDims.start ScatterDims.window
  rw [dif_pos (show (0 : Fin 2) ∈ (rowsDims N E wf).scatterDimsToOperandDims from List.mem_singleton.mpr rfl),
    dif_neg (show (0 : Fin 2) ∉ (rowsDims N E wf).sKept from (by decide : (0 : Fin 2) ∉ ([1] : List (Fin 2)))), Nat.cast_zero, add_zero]
  exact congrArg (fun t => (idx t).toInt) (funext fun b => Fin.ext (match b with | ⟨0, _⟩ => rfl | ⟨1, _⟩ => rfl))

-- ... and column k'.
theorem rows_coord1 (idx : IVec ⟨2, ![E, 1]⟩ w) (e : Fin E) (k' : Fin 2) :
    (rowsDims N E wf).start (ix2 e k') idx (1 : Fin 2) + ((rowsDims N E wf).window (ix2 e k') (1 : Fin 2) : Int) = k'.val := by
  unfold ScatterDims.start ScatterDims.window
  rw [dif_neg (show (1 : Fin 2) ∉ ([0] : List (Fin 2)) from by decide),
    dif_pos (show (1 : Fin 2) ∈ (rowsDims N E wf).sKept from (by decide : (1 : Fin 2) ∈ ([1] : List (Fin 2)))), zero_add]
  rfl

-- An update lands on (n, k) exactly when the columns agree and its index word, read signed, is n.
theorem resultIdx?_rows (idx : IVec ⟨2, ![E, 1]⟩ w) (e : Fin E) (k' : Fin 2) (n : Fin N) (k : Fin 2) :
    (rowsDims N E wf).resultIdx? (ix2 e k') idx = some (ix2 n k)
      ↔ k' = k ∧ (idx (ix2 e (0 : Fin 1))).toInt = (n.val : Int) := by
  have c0 := rows_coord0 wf idx e k'
  have c1 := rows_coord1 wf idx e k'
  have hn := n.isLt
  have hk := k.isLt
  have hk' := k'.isLt
  unfold ScatterDims.resultIdx?
  split
  · next h =>
    have g0 := (h (0 : Fin 2)).1
    rw [c0] at g0
    constructor
    · intro hEq
      have h0 : (_ : Int).toNat = n.val := congrArg Fin.val (congrFun (Option.some.inj hEq) (0 : Fin 2))
      have h1 : ((rowsDims N E wf).start (ix2 e k') idx (1 : Fin 2) + ((rowsDims N E wf).window (ix2 e k') (1 : Fin 2) : Int)).toNat = k.val := congrArg Fin.val (congrFun (Option.some.inj hEq) (1 : Fin 2))
      rw [c0] at h0
      rw [c1] at h1
      exact ⟨Fin.ext (by omega), by omega⟩
    · rintro ⟨rfl, ht⟩
      refine congrArg some (funext fun a => Fin.ext ?_)
      revert a
      refine Fin.forall_fin_two.mpr ⟨?_, ?_⟩
      · show (_ : Int).toNat = n.val
        rw [c0]; omega
      · show ((rowsDims N E wf).start (ix2 e k') idx (1 : Fin 2) + ((rowsDims N E wf).window (ix2 e k') (1 : Fin 2) : Int)).toNat = k'.val
        rw [c1]; omega
  · next h =>
    refine ⟨fun hEq => (nomatch hEq), ?_⟩
    rintro ⟨rfl, ht⟩
    refine absurd (Fin.forall_fin_two.mpr ⟨?_, ?_⟩) h
    · show _ ∧ _ < (N : Int)
      rw [c0]; omega
    · show _ ∧ _ < ((2 : Nat) : Int)
      rw [c1]; omega

-- The row scatter-add at (n, k): the operand's entry plus column k of the updates over the rows whose index word is n.
theorem scatterAdd_rows_apply (x0 : (⟨2, ![N, 2]⟩ : Shape).Idx → EReal) (idx : IVec ⟨2, ![E, 1]⟩ w)
    (upd : (⟨2, ![E, 2]⟩ : Shape).Idx → EReal) (n : Fin N) (k : Fin 2) :
    Ideal.hostScatterAdd (rowsDims N E wf) x0 idx upd (ix2 n k)
      = x0 (ix2 n k) + ∑ e ∈ Finset.univ.filter (fun e : Fin E => (idx (ix2 e (0 : Fin 1))).toInt = (n.val : Int)),
          upd (ix2 e k) := by
  unfold Ideal.hostScatterAdd
  congr 1
  have key : ∀ j, (rowsDims N E wf).resultIdx? j idx = some (ix2 n k)
      ↔ j 1 = k ∧ (idx (ix2 (j 0) (0 : Fin 1))).toInt = (n.val : Int) := fun j => by
    obtain ⟨a, b, rfl⟩ : ∃ (a : Fin E) (b : Fin 2), j = ix2 a b := ⟨j 0, j 1, eq_ix2 j⟩
    exact resultIdx?_rows wf idx a b n k
  have back : ∀ j : (⟨2, ![E, 2]⟩ : Shape).Idx, j 1 = k → ix2 (j 0) k = j :=
    fun j h => (congrArg (ix2 (j 0)) h).symm.trans (eq_ix2 j).symm
  refine Finset.sum_nbij' (fun j => (j 0 : Fin E)) (fun e => ix2 e k) ?_ ?_ ?_ ?_ ?_
  · exact fun j hj => Finset.mem_filter.mpr ⟨Finset.mem_univ _, ((key j).mp (Finset.mem_filter.mp hj).2).2⟩
  · exact fun e he => Finset.mem_filter.mpr ⟨Finset.mem_univ _, (key _).mpr ⟨rfl, (Finset.mem_filter.mp he).2⟩⟩
  · exact fun j hj => back j ((key j).mp (Finset.mem_filter.mp hj).2).1
  · exact fun e he => rfl
  · exact fun j hj => congrArg upd (back j ((key j).mp (Finset.mem_filter.mp hj).2).1).symm

end Cert.ScatterRows

end
-- ==== Proof.KHostScatter.lean ====
import proofs.«168346_j773094113349_1_alg».proof.Proof.MainRun
import proofs.«168346_j773094113349_1_alg».proof.Proof.KHostPre
import proofs.«168346_j773094113349_1_alg».proof.Proof.ScatterRows
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo

namespace Scatter

section Ops
variable {α : Type}

-- Read row by row, entry `e` of a 63488 × 128 array sits in row `e / 128`, lane `e % 128`.
theorem flatCol_apply (x : S63488x128.Idx → α) (h1 : S63488x128.ShapeCasts S8126464) (h2 : S8126464.Slices ![0] S8000000)
    (h3 : S8000000.BroadcastsInDim S8000000x1 ![0]) (e : Fin 8000000) :
    broadcastInDim S8000000x1 ![0] h3 (extractStridedSlice S8000000 ![0] (shapeCast S8126464 x h1) h2) (ix2 e (0 : Fin 1)) = x (rcOf e) := by
  refine (colMat_apply ![0] rfl h3 (by decide) _ _).trans ?_
  refine (extractStridedSlice_apply ![0] _ h2 (ix1 e) (ix1 (⟨e.val, by have := e.isLt; omega⟩ : Fin 8126464))
    (fun a => match a with
      | ⟨0, _⟩ => by show e.val = 0 + e.val; omega)).trans ?_
  refine shapeCast_apply x h1 _ (rcOf e) ?_
  rw [Shape.rowMajor_val_two, Shape.rowMajor_val_one]
  show (e.val / 128) * 128 + e.val % 128 = e.val
  omega

theorem stack_apply (a b : S8000000x1.Idx → α) (h : Shape.Concatenates [S8000000x1, S8000000x1] S8000000x2 1)
    (e : Fin 8000000) (k : Fin 2) :
    concatenate S8000000x2 1 [⟨S8000000x1, a⟩, ⟨S8000000x1, b⟩] h (ix2 e k)
      = if k.val = 0 then a (ix2 e (0 : Fin 1)) else b (ix2 e (0 : Fin 1)) := by
  have hk2 := k.isLt
  by_cases hk : k.val = 0
  · rw [if_pos hk]
    exact concatenate_pair_apply_left (t := S8000000x2) (1 : Fin 2) a b h _ rfl (ix2 e (0 : Fin 1)) fun b => match b with
      | ⟨0, _⟩ => rfl
      | ⟨1, _⟩ => hk.symm
  · rw [if_neg hk]
    exact concatenate_pair_apply_right (t := S8000000x2) (1 : Fin 2) a b h _ rfl rfl (ix2 e (0 : Fin 1))
      (fun b hb => match b, hb with
        | ⟨0, _⟩, _ => rfl
        | ⟨1, _⟩, hb => absurd rfl hb)
      (by show 0 + 1 = k.val; omega)

end Ops

theorem scatterK_apply (x0 : S1000000x2.Idx → EReal) (idx : IVec S8000000x1 32) (upd : S8000000x2.Idx → EReal)
    (n : Fin 1000000) (k : Fin 2) :
    (Host.scatterAdd (F := Ideal) (φ := .f32) scatter_S1000000x2_S8000000x1_S8000000x2_1_0_0_1 x0 idx upd : S1000000x2.Idx → EReal) (ix2 n k)
      = x0 (ix2 n k) + ∑ e ∈ Finset.univ.filter (fun e : Fin 8000000 => (idx (ix2 e (0 : Fin 1))).toInt = (n.val : Int)),
          upd (ix2 e k) :=
  Cert.ScatterRows.scatterAdd_rows_apply Facts₀.scatter_S1000000x2_S8000000x1_S8000000x2_1_0_0_1_wf x0 idx upd n k

end Scatter

variable (m : (ℓ : Loc nD τ sig) → Buf (Elt Ideal) ℓ) (c : Dev nD)

theorem W14_ends {r : Ref sig .tc} (hr : r = main_v1 ∨ r = main_v3) :
    W14 m c (Proc.devRef .tc r) = after hostOps0 (W0 m c) (Proc.devRef .tc r) := by
  rcases hr with rfl | rfl <;> exact
    (W14_of_ne m c _ (by decide)).trans <|
    (after_of_writes_sub hostOps0_12 _ hostOps0_12_writes (by decide)).trans <|
    (after_of_writes_sub hostOps0_11 _ hostOps0_11_writes (by decide)).trans <|
    (after_of_writes_sub hostOps0_10 _ hostOps0_10_writes (by decide)).trans <|
    (after_of_writes_sub hostOps0_9 _ hostOps0_9_writes (by decide)).trans <|
    (after_of_writes_sub hostOps0_8 _ hostOps0_8_writes (by decide)).trans <|
    (after_of_writes_sub hostOps0_7 _ hostOps0_7_writes (by decide)).trans <|
    (after_of_writes_sub hostOps0_6 _ hostOps0_6_writes (by decide)).trans <|
    (after_of_writes_sub hostOps0_5 _ hostOps0_5_writes (by decide)).trans <|
    (after_of_writes_sub hostOps0_4 _ hostOps0_4_writes (by decide)).trans <|
    (after_of_writes_sub hostOps0_3 _ hostOps0_3_writes (by decide)).trans <|
    (after_of_writes_sub hostOps0_2 _ hostOps0_2_writes (by decide)).trans <|
    (after_of_writes_sub hostOps0_1 _ hostOps0_1_writes (by decide)).trans <|
    rfl

-- The first stretch cuts rows 0 and 1 out of the end-node array, and nothing later touches them.
theorem idx0 (e : Fin 8000000) :
    (W14 m c (Proc.devRef .tc main_v1) : S8000000.Idx → BitVec 32) (ix1 e) = Cert.Spec.e0 (eiA m c) e := by
  have h : (W14 m c (Proc.devRef .tc main_v1) : S8000000.Idx → BitVec 32)
      = (after hostOps0 (W0 m c) (Proc.devRef .tc main_v1) : S8000000.Idx → BitVec 32) := W14_ends m c (.inl rfl)
  rw [h]
  after_results
  beta_reduce
  exact rowVec_apply (0 : Fin 2) ![0, 0] rfl rfl _ _ _ (ix1 e)

theorem idx1 (e : Fin 8000000) :
    (W14 m c (Proc.devRef .tc main_v3) : S8000000.Idx → BitVec 32) (ix1 e) = Cert.Spec.e1 (eiA m c) e := by
  have h : (W14 m c (Proc.devRef .tc main_v3) : S8000000.Idx → BitVec 32)
      = (after hostOps0 (W0 m c) (Proc.devRef .tc main_v3) : S8000000.Idx → BitVec 32) := W14_ends m c (.inr rfl)
  rw [h]
  after_results
  beta_reduce
  exact rowVec_apply (1 : Fin 2) ![1, 0] rfl rfl _ _ _ (ix1 e)

-- Whatever the stretch between the regions finds, it leaves at `(n, k)` the two scatter-adds' sums over the edges.
theorem hostOps1_v73 (V : Valuation τ sig (Elt Ideal)) (n : Fin 1000000) (k : Fin 2)
    {i0 i1 : Fin 8000000 → BitVec 32} {f g : Fin 8000000 → EReal}
    (h0 : ∀ e, (V (Proc.devRef .tc main_v1) : S8000000.Idx → BitVec 32) (ix1 e) = i0 e)
    (h1 : ∀ e, (V (Proc.devRef .tc main_v3) : S8000000.Idx → BitVec 32) (ix1 e) = i1 e)
    (hf : ∀ e, (if k.val = 0 then (V (Proc.devRef .tc main_v52_0) : S63488x128.Idx → EReal) (rcOf e)
      else (V (Proc.devRef .tc main_v52_1) : S63488x128.Idx → EReal) (rcOf e)) = f e)
    (hg : ∀ e, (if k.val = 0 then (V (Proc.devRef .tc main_v52_2) : S63488x128.Idx → EReal) (rcOf e)
      else (V (Proc.devRef .tc main_v52_3) : S63488x128.Idx → EReal) (rcOf e)) = g e) :
    (after hostOps1 V (Proc.devRef .tc main_v73) : S1000000x2.Idx → EReal) (ix2 n k)
      = (0 + ∑ e ∈ Finset.univ.filter (fun e : Fin 8000000 => Cert.Spec.lands (i0 e) n), f e)
        + (0 + ∑ e ∈ Finset.univ.filter (fun e : Fin 8000000 => Cert.Spec.lands (i1 e) n), g e) := by
  have key (v : S8000000.Idx → BitVec 32) (i : Fin 8000000 → BitVec 32) (h : ∀ e, v (ix1 e) = i e) (e : Fin 8000000) :
      (broadcastInDim S8000000x1 ![0] bcast_S8000000_S8000000x1_0 v (ix2 e (0 : Fin 1))).toInt = (n.val : Int)
        ↔ Cert.Spec.lands (i e) n := by
    rw [colMat_apply ![0] rfl bcast_S8000000_S8000000x1_0 (by decide) v (ix2 e (0 : Fin 1))]
    exact iff_of_eq (congrArg (fun w : BitVec 32 => w.toInt = (n.val : Int)) (h e))
  after_results
  beta_reduce
  rw [addf_apply, Scatter.scatterK_apply, Scatter.scatterK_apply, broadcastInDim_scalar_apply, constant_apply, Ideal.ofBits_zero_f32]
  exact congrArg₂ (fun a b : EReal => a + b)
    (congrArg (fun a : EReal => 0 + a)
      (Finset.sum_congr (Finset.filter_congr fun e _ => key _ _ h0 e) fun e _ => by
        rw [Scatter.stack_apply]
        exact (ite_congr rfl (fun _ => Scatter.flatCol_apply _ _ _ _ e) fun _ => Scatter.flatCol_apply _ _ _ _ e).trans (hf e)))
    (congrArg (fun a : EReal => 0 + a)
      (Finset.sum_congr (Finset.filter_congr fun e _ => key _ _ h1 e) fun e _ => by
        rw [Scatter.stack_apply]
        exact (ite_congr rfl (fun _ => Scatter.flatCol_apply _ _ _ _ e) fun _ => Scatter.flatCol_apply _ _ _ _ e).trans (hg e)))

end Cert.KernelIdeal.Hand

end
-- ==== Proof.KHostTail.lean ====
import proofs.«168346_j773094113349_1_alg».proof.Proof.Gen.KernelIdeal.Launch
import proofs.«168346_j773094113349_1_alg».proof.Proof.Spec
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo

theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem shapeCast_S1x1_S_ (x : S1x1.Idx → EReal) (h : S1x1.ShapeCasts S_) (j : S_.Idx) :
    shapeCast S_ x h j = x (ValueIdx.ix2 0 0) :=
  shapeCast_apply x h j (ValueIdx.ix2 0 0) (by
    rw [Shape.rowMajor_val_two]
    exact (Shape.rowMajorPi_zero _ _).symm)

abbrev z1 : S1.Idx := ValueIdx.ix1 (0 : Fin 1)

theorem concat3_apply {α : Type} (a b c : S1.Idx → α)
    (h : Shape.Concatenates (([⟨S1, a⟩, ⟨S1, b⟩, ⟨S1, c⟩] : List ((s : Shape) × (s.Idx → α))).map (·.1)) S3 0) (i : S3.Idx) :
    concatenate S3 0 [⟨S1, a⟩, ⟨S1, b⟩, ⟨S1, c⟩] h i
      = if (i 0).val = 0 then a z1 else if (i 0).val = 1 then b z1 else c z1 := by
  have hi : (i 0).val < 3 := (i 0).isLt
  have h3 : (i 0).val = 0 ∨ (i 0).val = 1 ∨ (i 0).val = 2 := by omega
  rcases h3 with h0 | h1 | h2
  · rw [if_pos h0]
    exact concatenate_apply_piece (0 : Fin 1) _ h i 0 (by simp) S1 a rfl rfl 0 rfl z1
      (fun b hb => absurd (Subsingleton.elim _ _) hb) (by show 0 + 0 = (i 0).val; omega)
  · rw [if_neg (by omega), if_pos h1]
    exact concatenate_apply_piece (0 : Fin 1) _ h i 1 (by simp) S1 b rfl rfl 1 rfl z1
      (fun b hb => absurd (Subsingleton.elim _ _) hb) (by show 1 + 0 = (i 0).val; omega)
  · rw [if_neg (by omega), if_neg (by omega)]
    exact concatenate_apply_piece (0 : Fin 1) _ h i 2 (by simp) S1 c rfl rfl 2 rfl z1
      (fun b hb => absurd (Subsingleton.elim _ _) hb) (by show 2 + 0 = (i 0).val; omega)

theorem tail_v90 (W : Valuation τ sig (Elt Ideal)) :
    (StableHlo.after hostOps2 W (Proc.devRef .tc main_v90) : S3.Idx → EReal)
      = Cert.Spec.outOf ((W (Proc.devRef .tc main_v79_0) : S1x1.Idx → EReal) (ValueIdx.ix2 0 0))
          ((W (Proc.devRef .tc main_v79_1) : S1x1.Idx → EReal) (ValueIdx.ix2 0 0)) := by
  simp only [after_cons, after_nil]
  rw [nary3_result]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  funext (i : S3.Idx)
  unfold Cert.Spec.outOf
  refine (concat3_apply _ _ _ _ i).trans (ite_congr rfl (fun _ => ?_) fun _ => ite_congr rfl (fun _ => ?_) fun _ => ?_)
  · show Ideal.div (shapeCast S_ (W (Proc.devRef .tc main_v79_0) : S1x1.Idx → EReal) shapeCasts_S1x1_S_ _) _ = _
    rw [shapeCast_S1x1_S_]; rfl
  · show Ideal.div (shapeCast S_ (W (Proc.devRef .tc main_v79_1) : S1x1.Idx → EReal) shapeCasts_S1x1_S_ _) _ = _
    rw [shapeCast_S1x1_S_]; rfl
  · show _ * Ideal.div (shapeCast S_ (W (Proc.devRef .tc main_v79_1) : S1x1.Idx → EReal) shapeCasts_S1x1_S_ _) _
      + _ * Ideal.div (shapeCast S_ (W (Proc.devRef .tc main_v79_0) : S1x1.Idx → EReal) shapeCasts_S1x1_S_ _) _ = _
    rw [shapeCast_S1x1_S_, shapeCast_S1x1_S_]; rfl

end Cert.KernelIdeal.Hand

end
-- ==== Proof.NodeValueOps.lean ====
import proofs.«168346_j773094113349_1_alg».proof.Proof.NodeRuns
import proofs.«168346_j773094113349_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

theorem colSum_apply (f : FVec Ideal S4000x1 .f32) :
    multiReduction (F := Ideal) .add [0] S1 f 0x00000000#32 reduces_S4000x1_S1 (.inl rfl) rfl (ix1 (0 : Fin 1))
      = ∑ r : Fin 4000, f (ix2 r (0 : Fin 1)) :=
  (Ideal.multiReduction_add_single f _ reduces_S4000x1_S1 _ _ _).trans
    (Finset.sum_congr rfl fun r _ => congrArg f (Shape.idx_ext₂ rfl rfl))

theorem laneSum_apply (f : FVec Ideal S4000x6 .f32) (r : Fin 4000) :
    multiReduction (F := Ideal) .add [1] S4000 f 0x00000000#32 reduces_S4000x6_S4000 (.inl rfl) rfl (ix1 r)
      = ∑ k : Fin 6, f (ix2 r k) :=
  (Ideal.multiReduction_add_single f _ reduces_S4000x6_S4000 _ _ _).trans
    (Finset.sum_congr rfl fun k _ => congrArg f (Shape.idx_ext₂ rfl rfl))

theorem pay2_apply : k1_pay2 (F := Ideal) (ix2 0 0) = 0 := by
  unfold k1_pay2
  rw [shapeCast_self]
  exact (Ideal.ofBits_def _).trans Ideal.ofBits_zero_f32

theorem pay3_apply : k1_pay3 (F := Ideal) (ix2 0 0) = 0 := pay2_apply

section
variable (x y : Vec Ideal S4000x6 .f32) (a : Vec Ideal S4000x2 .f32) (tm ts : Vec Ideal S1x6 .f32) (p : Vec Ideal S1x1 .f32)

theorem pay4_apply : k1_pay4 (F := Ideal) x a p (ix2 0 0)
    = p (ix2 0 0) + ∑ r : Fin 4000, Cert.Spec.nodeSq (a (ix2 r 0)) (a (ix2 r 1)) (x (ix2 r 2)) (x (ix2 r 3)) := by
  unfold k1_pay4
  rw [shapeCast_self, shapeCast_self, addf_apply]
  refine congrArg (p (ix2 0 0) + ·) ((shapeCast_a_1a_apply _ shapeCasts_S1_S1x1 (0 : Fin 1) (0 : Fin 1)).trans ((colSum_apply _).trans ?_))
  refine Finset.sum_congr rfl fun r _ => ?_
  rw [addf_apply, mulf_apply, mulf_apply, addf_apply, addf_apply,
    slice2_axis1_apply 0 a slices_S4000x2_o0_0_S4000x1 r (0 : Fin 1) (0 : Fin 2) rfl,
    slice2_axis1_apply 2 x slices_S4000x6_o0_2_S4000x1 r (0 : Fin 1) (2 : Fin 6) rfl,
    slice2_axis1_apply 1 a slices_S4000x2_o0_1_S4000x1 r (0 : Fin 1) (1 : Fin 2) rfl,
    slice2_axis1_apply 3 x slices_S4000x6_o0_3_S4000x1 r (0 : Fin 1) (3 : Fin 6) rfl]
  rfl

theorem shapeCast_col_apply {α : Type} (v : S4000.Idx → α) (r : Fin 4000) :
    shapeCast S4000x1 v shapeCasts_S4000_S4000x1 (ix2 r (0 : Fin 1)) = v (ix1 r) :=
  shapeCast_apply v shapeCasts_S4000_S4000x1 _ _ (by
    rw [Shape.rowMajor_val_two, Shape.rowMajor_val_one]
    show r.val = r.val * 1 + 0
    omega)

theorem pay15_apply : k1_pay1 (F := Ideal) (k1_pay5 x y tm ts) p (ix2 0 0)
    = p (ix2 0 0) + ∑ r : Fin 4000, ∑ k : Fin 6, Cert.Spec.nodeD (x (ix2 r k)) (y (ix2 r k)) (tm (ix2 0 k)) (ts (ix2 0 k)) := by
  unfold k1_pay1
  rw [shapeCast_self, addf_apply]
  refine congrArg (p (ix2 0 0) + ·) ((shapeCast_a_1a_apply _ shapeCasts_S1_S1x1 (0 : Fin 1) (0 : Fin 1)).trans ((colSum_apply _).trans ?_))
  refine Finset.sum_congr rfl fun r _ => ?_
  unfold k1_pay5
  rw [shapeCast_self, shapeCast_self]
  refine (shapeCast_col_apply _ r).trans ((laneSum_apply _ r).trans (Finset.sum_congr rfl fun k _ => ?_))
  rw [mulf_apply, subf_apply, divf_apply, divf_apply, subf_apply, subf_apply,
    broadcastTo_1b_ab_apply tm broadcasts_S1x6_S4000x6 r k, broadcastTo_1b_ab_apply ts broadcasts_S1x6_S4000x6 r k]
  rfl

end

section BlockReads

open Idealize.ShloMosaic.TcCoe Idealize.SL.Sem

variable (V : (c : Dev nD) → (b : Ref sig .tc) → Buf (Elt Ideal) ((c : Thread nD τ).loc b))
variable (c : Dev nD) (t : Fin cfg1.N) (ht : t.val < 250) (r : Fin 4000) (k : Fin 6) (k2 : Fin 2)

-- The node-blocked windows share one index map, decided over the grid: block `(t, 0)` at point `t`.
theorem widx1 : ∀ t : Fin cfg1.N, win1_0.index t (0 : Fin 2) = t.val :=
  (by decide +kernel : ∀ t : Fin grid1.N, _)

theorem row1 : win1_0.index t (0 : Fin 2) * 4000 + 1 * r.val = (Cert.Spec.rowOf ⟨t.val, ht⟩ r).val := by
  rw [widx1 t]; show _ = 4000 * t.val + r.val; omega

-- Row `r` of a node-blocked window's block at point `t` is row `4000 t + r` of its array.
theorem emb1_6 : (((cfg1.win 0).blk t).view.emb (ix2 r k) : S1000000x6.Idx) = ix2 (Cert.Spec.rowOf ⟨t.val, ht⟩ r) k :=
  Shape.idx_ext₂ (row1 t ht r) (by show 0 * 6 + 1 * k.val = k.val; omega)

theorem emb1_2 : (((cfg1.win 2).blk t).view.emb (ix2 r k2) : S1000000x2.Idx) = ix2 (Cert.Spec.rowOf ⟨t.val, ht⟩ r) k2 :=
  Shape.idx_ext₂ (row1 t ht r) (by show 0 * 2 + 1 * k2.val = k2.val; omega)

-- The two statistics rows are read whole at every point.
theorem emb1_3 : (((cfg1.win 3).blk t).view.emb (ix2 0 k) : S1x6.Idx) = ix2 0 k :=
  Shape.idx_ext₂ rfl (by show 0 * 6 + 1 * k.val = k.val; omega)

theorem iblk1_3_apply : (iblk1 V c 3 t : Vec Ideal S1x6 .f32) (ix2 0 k) = (V c main_v77 : S1x6.Idx → EReal) (ix2 0 k) :=
  congrArg (V c main_v77) (emb1_3 t k)

theorem iblk1_4_apply : (iblk1 V c 4 t : Vec Ideal S1x6 .f32) (ix2 0 k) = (V c main_v78 : S1x6.Idx → EReal) (ix2 0 k) :=
  congrArg (V c main_v78) (emb1_3 t k)

end BlockReads

end Cert.KernelIdeal.Hand

end
-- ==== Proof.NodePieces.lean ====
import proofs.«168346_j773094113349_1_alg».proof.Proof.NodeFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Pieces that tile the buffer read back as the contents they alone determine.
theorem rb_canon (v : View sig .tc .vmem S1x1 .f32) (L : Pcs F) (hL : View.Piece.tiledL L S1x1.size = true) : rb v L = View.canon L :=
  View.read_writes_eq_canon _ _ _ (View.cover_of_tiledL L _ hL)

variable (c : Dev nD) (t : Fin cfg1.N)

-- Each case's accumulators in closed form: zeroed first at the first point, then the block's sums added; at the last point each output receives its accumulator.
theorem runs_eq :
    (∀ h0 h1, rb VS1_0 (runA V c t h0 h1).2.2.1 = k1_pay4 (iblk1 V c 0 t) (iblk1 V c 2 t) k1_pay2 ∧ rb VS1_1 (runA V c t h0 h1).2.2.2.1 = k1_pay1 (k1_pay5 (iblk1 V c 0 t) (iblk1 V c 1 t) (iblk1 V c 3 t) (iblk1 V c 4 t)) k1_pay3)
    ∧ (∀ h0 h1 p, rb VS1_0 (runB V c t h0 h1 p).2.2.1 = k1_pay4 (iblk1 V c 0 t) (iblk1 V c 2 t) p.1 ∧ rb VS1_1 (runB V c t h0 h1 p).2.2.2.1 = k1_pay1 (k1_pay5 (iblk1 V c 0 t) (iblk1 V c 1 t) (iblk1 V c 3 t) (iblk1 V c 4 t)) p.2)
    ∧ ∀ h0 h1 p, rb VS1_0 (runC V c t h0 h1 p).2.2.1 = k1_pay4 (iblk1 V c 0 t) (iblk1 V c 2 t) p.1 ∧ rb VS1_1 (runC V c t h0 h1 p).2.2.2.1 = k1_pay1 (k1_pay5 (iblk1 V c 0 t) (iblk1 V c 1 t) (iblk1 V c 3 t) (iblk1 V c 4 t)) p.2
      ∧ rb VO1_5 (runC V c t h0 h1 p).1 = k1_pay4 (iblk1 V c 0 t) (iblk1 V c 2 t) p.1 ∧ rb VO1_6 (runC V c t h0 h1 p).2.1 = k1_pay1 (k1_pay5 (iblk1 V c 0 t) (iblk1 V c 1 t) (iblk1 V c 3 t) (iblk1 V c 4 t)) p.2 := by
  have hz : (![0, 0] : Fin 2 → ℕ) = fun _ => 0 := by funext a; fin_cases a <;> rfl
  refine ⟨fun h0 h1 => ⟨?_, ?_⟩, fun h0 h1 p => ⟨?_, ?_⟩, fun h0 h1 p => ⟨?_, ?_, ?_, ?_⟩⟩ <;>
  · refine (rb_canon _ _ (by sl_kernel_rfl)).trans ?_
    first | unfold runA kernelRun1_A | unfold runB kernelRun1_B | unfold runC kernelRun1_C
    dsimp only; sl_unfold_words
    simp only [View.canon_cons_unit_zero (S := S1x1) hz, View.canon_unit_zero (S := S1x1) hz, View.readCov_unit_zero (S := S1x1) _ hz, View.readAt_eq_ld, (hs1_0 t).read_unread, (hs1_1 t).read_unread, (hs1_2 t).read_unread, (hs1_3 t).read_unread, (hs1_4 t).read_unread, (Memref.isWhole_whole cc1_scratch0).read_unread, (Memref.isWhole_whole cc1_scratch1).read_unread, View.ld_unit_zero (S := S4000x6) hz, View.ld_unit_zero (S := S4000x2) hz, View.ld_unit_zero (S := S1x6) hz, View.ld_unit_zero (S := S1x1) hz]

theorem accP_zero (hn : 0 < cfg1.N) :
    (outsAt1 V c 0 hn).2.2.1 = k1_pay4 (iblk1 V c 0 ⟨0, hn⟩) (iblk1 V c 2 ⟨0, hn⟩) k1_pay2 :=
  ((runs_eq V c ⟨0, hn⟩).1 rfl (by decide : ¬(0 : ℕ) = 249)).1

theorem accM_zero (hn : 0 < cfg1.N) :
    (outsAt1 V c 0 hn).2.2.2 = k1_pay1 (k1_pay5 (iblk1 V c 0 ⟨0, hn⟩) (iblk1 V c 1 ⟨0, hn⟩) (iblk1 V c 3 ⟨0, hn⟩) (iblk1 V c 4 ⟨0, hn⟩)) k1_pay3 :=
  ((runs_eq V c ⟨0, hn⟩).1 rfl (by decide : ¬(0 : ℕ) = 249)).2

-- After a later point each accumulator holds that point's block sum added to what the point before left.
theorem acc_succ (n : ℕ) (hn : n + 1 < cfg1.N) :
    (outsAt1 V c (n + 1) hn).2.2.1 = k1_pay4 (iblk1 V c 0 ⟨n + 1, hn⟩) (iblk1 V c 2 ⟨n + 1, hn⟩) (outsAt1 V c n (Nat.lt_of_succ_lt hn)).2.2.1
    ∧ (outsAt1 V c (n + 1) hn).2.2.2 = k1_pay1 (k1_pay5 (iblk1 V c 0 ⟨n + 1, hn⟩) (iblk1 V c 1 ⟨n + 1, hn⟩) (iblk1 V c 3 ⟨n + 1, hn⟩) (iblk1 V c 4 ⟨n + 1, hn⟩)) (outsAt1 V c n (Nat.lt_of_succ_lt hn)).2.2.2 := by
  by_cases h1 : n + 1 = 249
  · rw [outsAt1_C V c ⟨n + 1, hn⟩ n.succ_ne_zero h1]
    have e := (runs_eq V c ⟨n + 1, hn⟩).2.2 n.succ_ne_zero h1 (prev V c ⟨n + 1, hn⟩)
    exact ⟨e.1, e.2.1⟩
  · rw [outsAt1_B V c ⟨n + 1, hn⟩ n.succ_ne_zero h1]
    exact (runs_eq V c ⟨n + 1, hn⟩).2.1 n.succ_ne_zero h1 (prev V c ⟨n + 1, hn⟩)

theorem accP_succ (n : ℕ) (hn : n + 1 < cfg1.N) :
    (outsAt1 V c (n + 1) hn).2.2.1 = k1_pay4 (iblk1 V c 0 ⟨n + 1, hn⟩) (iblk1 V c 2 ⟨n + 1, hn⟩) (outsAt1 V c n (Nat.lt_of_succ_lt hn)).2.2.1 :=
  (acc_succ V c n hn).1

theorem accM_succ (n : ℕ) (hn : n + 1 < cfg1.N) :
    (outsAt1 V c (n + 1) hn).2.2.2 = k1_pay1 (k1_pay5 (iblk1 V c 0 ⟨n + 1, hn⟩) (iblk1 V c 1 ⟨n + 1, hn⟩) (iblk1 V c 3 ⟨n + 1, hn⟩) (iblk1 V c 4 ⟨n + 1, hn⟩)) (outsAt1 V c n (Nat.lt_of_succ_lt hn)).2.2.2 :=
  (acc_succ V c n hn).2

-- At the last point each output receives what its accumulator holds after that point.
theorem outO5_at (t : Fin cfg1.N) (h0 : ¬t.val = 0) (h1 : t.val = 249) :
    (outsAt1 V c t.val t.isLt).1 = (outsAt1 V c t.val t.isLt).2.2.1 := by
  rw [outsAt1_C V c t h0 h1]
  have e := (runs_eq V c t).2.2 h0 h1 (prev V c t)
  exact e.2.2.1.trans e.1.symm

theorem outO6_at (t : Fin cfg1.N) (h0 : ¬t.val = 0) (h1 : t.val = 249) :
    (outsAt1 V c t.val t.isLt).2.1 = (outsAt1 V c t.val t.isLt).2.2.2 := by
  rw [outsAt1_C V c t h0 h1]
  have e := (runs_eq V c t).2.2 h0 h1 (prev V c t)
  exact e.2.2.2.trans e.2.1.symm

end Cert.KernelIdeal.Hand

end
-- ==== Proof.NodeValue.lean ====
import proofs.«168346_j773094113349_1_alg».proof.Proof.NodeValueOps
import proofs.«168346_j773094113349_1_alg».proof.Proof.NodePieces

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

abbrev fP (c : Dev nD) : Fin 250 → EReal := fun t => ∑ r : Fin 4000, Cert.Spec.nodeSq
  ((V c main_v73 : S1000000x2.Idx → EReal) (ix2 (Cert.Spec.rowOf t r) 0))
  ((V c main_v73 : S1000000x2.Idx → EReal) (ix2 (Cert.Spec.rowOf t r) 1))
  ((V c main_arg0 : S1000000x6.Idx → EReal) (ix2 (Cert.Spec.rowOf t r) 2))
  ((V c main_arg0 : S1000000x6.Idx → EReal) (ix2 (Cert.Spec.rowOf t r) 3))

abbrev fM (c : Dev nD) : Fin 250 → EReal := fun t => ∑ r : Fin 4000, ∑ k : Fin 6, Cert.Spec.nodeD
  ((V c main_arg0 : S1000000x6.Idx → EReal) (ix2 (Cert.Spec.rowOf t r) k))
  ((V c main_arg2 : S1000000x6.Idx → EReal) (ix2 (Cert.Spec.rowOf t r) k))
  ((V c main_v77 : S1x6.Idx → EReal) (ix2 0 k))
  ((V c main_v78 : S1x6.Idx → EReal) (ix2 0 k))

theorem accK_succ_of_lt (f : Fin 250 → EReal) (n : ℕ) (h : n < 250) :
    Cert.Spec.accK f (n + 1) = Cert.Spec.accK f n + f ⟨n, h⟩ := by
  show Cert.Spec.accK f n + (if h : n < 250 then f ⟨n, h⟩ else 0) = _
  rw [dif_pos h]

section
variable (c : Dev nD) (t : Fin cfg1.N) (ht : t.val < 250) (p : Vec Ideal S1x1 .f32)

-- One point's payload adds its block's addend, read off the arrays, to the carried value.
theorem blockP : k1_pay4 (iblk1 V c 0 t) (iblk1 V c 2 t) p (ix2 0 0) = p (ix2 0 0) + fP V c ⟨t.val, ht⟩ :=
  (pay4_apply _ _ _).trans (congrArg (p (ix2 0 0) + ·) (Finset.sum_congr rfl fun r _ => by
    rw [← emb1_2 t ht r 0, ← emb1_2 t ht r 1, ← emb1_6 t ht r 2, ← emb1_6 t ht r 3]; rfl))

theorem blockM : k1_pay1 (k1_pay5 (iblk1 V c 0 t) (iblk1 V c 1 t) (iblk1 V c 3 t) (iblk1 V c 4 t)) p (ix2 0 0)
    = p (ix2 0 0) + fM V c ⟨t.val, ht⟩ :=
  (pay15_apply _ _ _ _ _).trans (congrArg (p (ix2 0 0) + ·) (Finset.sum_congr rfl fun r _ => Finset.sum_congr rfl fun k _ => by
    rw [iblk1_3_apply V c t, iblk1_4_apply V c t, ← emb1_6 t ht r k]; rfl))

end

-- By induction on the point: each accumulator after point `n` holds the accumulation of the first `n + 1` blocks.
theorem accP_eq (c : Dev nD) : ∀ (n : ℕ) (hn : n < cfg1.N),
    (outsAt1 V c n hn).2.2.1 (ix2 0 0) = Cert.Spec.accK (fP V c) (n + 1)
  | 0, hn => by
    rw [accP_zero V c hn, blockP V c ⟨0, hn⟩ (show (0 : ℕ) < 250 by decide), pay2_apply, accK_succ_of_lt _ 0 (by decide)]
    rfl
  | n + 1, hn => by
    have hlt : n + 1 < 250 := by have : cfg1.N = 250 := N_1; omega
    rw [accP_succ V c n hn, blockP V c ⟨n + 1, hn⟩ hlt, accP_eq c n (Nat.lt_of_succ_lt hn), accK_succ_of_lt _ (n + 1) hlt]

theorem accM_eq (c : Dev nD) : ∀ (n : ℕ) (hn : n < cfg1.N),
    (outsAt1 V c n hn).2.2.2 (ix2 0 0) = Cert.Spec.accK (fM V c) (n + 1)
  | 0, hn => by
    refine (congrFun (accM_zero V c hn) _).trans ((blockM V c ⟨0, hn⟩ (show (0 : ℕ) < 250 by decide) _).trans ?_)
    rw [pay3_apply, accK_succ_of_lt _ 0 (by decide)]
    rfl
  | n + 1, hn => by
    have hlt : n + 1 < 250 := by have : cfg1.N = 250 := N_1; omega
    refine (congrFun (accM_succ V c n hn) _).trans ((blockM V c ⟨n + 1, hn⟩ hlt _).trans ?_)
    rw [accM_eq c n (Nat.lt_of_succ_lt hn), accK_succ_of_lt _ (n + 1) hlt]

theorem idx11 (j : S1x1.Idx) : j = ix2 0 0 :=
  Shape.idx_ext₂ (Nat.lt_one_iff.mp (j 0).isLt) (Nat.lt_one_iff.mp (j 1).isLt)

-- The last point copies each accumulator into its output, whose one block is the whole array.
theorem flushed1 (c : Dev nD) (t : Fin cfg1.N) (h : t.val % 250 = 249) :
    (dat1 (F := Ideal) V c).flushed 5 t = ((cfg1.win 5).blk t).view.read (Elt Ideal) (fun _ => Cert.Spec.accK (fP V c) 250)
    ∧ (dat1 (F := Ideal) V c).flushed 6 t = ((cfg1.win 6).blk t).view.read (Elt Ideal) (fun _ => Cert.Spec.accK (fM V c) 250) := by
  have h249 : t.val = 249 := by have := t.isLt; have : cfg1.N = 250 := N_1; omega
  constructor <;> funext j <;> obtain rfl := idx11 j
  · show (outsAt1 V c t.val t.isLt).1 (ix2 0 0) = Cert.Spec.accK (fP V c) 250
    rw [outO5_at V c t (by omega) h249, accP_eq V c t.val t.isLt, h249]
  · show (outsAt1 V c t.val t.isLt).2.1 (ix2 0 0) = Cert.Spec.accK (fM V c) 250
    rw [outO6_at V c t (by omega) h249, accM_eq V c t.val t.isLt, h249]

theorem mem1 (t : Fin cfg1.N) (i : S1x1.Idx) : i ∈ ((cfg1.win 5).blk t).view.set ∧ i ∈ ((cfg1.win 6).blk t).view.set := by
  have h0 : (i 0).val < 1 := (i 0).isLt
  have h1 : (i 1).val < 1 := (i 1).isLt
  constructor
  · show i ∈ ((View.whole main_v79_0).slice (win1_5.rect t)).set
    rw [View.set_slice_whole, Rect.mem_set_unit]
    exact Fin.forall_fin_two.mpr ⟨⟨Nat.zero_le _, h0⟩, Nat.zero_le _, h1⟩
  · show i ∈ ((View.whole main_v79_1).slice (win1_6.rect t)).set
    rw [View.set_slice_whole, Rect.mem_set_unit]
    exact Fin.forall_fin_two.mpr ⟨⟨Nat.zero_le _, h0⟩, Nat.zero_le _, h1⟩

theorem final1_5 (c : Dev nD) :
    ((dat1 (F := Ideal) V c).arrAt 5 cfg1.N : S1x1.Idx → EReal) (ix2 0 0)
      = Cert.Spec.accK (fun t => ∑ r : Fin 4000, Cert.Spec.nodeSq
          ((V c main_v73 : S1000000x2.Idx → EReal) (ix2 (Cert.Spec.rowOf t r) 0))
          ((V c main_v73 : S1000000x2.Idx → EReal) (ix2 (Cert.Spec.rowOf t r) 1))
          ((V c main_arg0 : S1000000x6.Idx → EReal) (ix2 (Cert.Spec.rowOf t r) 2))
          ((V c main_arg0 : S1000000x6.Idx → EReal) (ix2 (Cert.Spec.rowOf t r) 3))) 250 :=
  (dat1 (F := Ideal) V c).arrAt_apply_of_mem 5 (fun _ => Cert.Spec.accK (fP V c) 250) (fun t hf => (flushed1 V c t ((flush1_5 t).mp hf)).1)
    cfg1.N ⟨249, by decide⟩ _ (by decide) ((flush1_5 _).mpr rfl) (mem1 _ _).1

theorem final1_6 (c : Dev nD) :
    ((dat1 (F := Ideal) V c).arrAt 6 cfg1.N : S1x1.Idx → EReal) (ix2 0 0)
      = Cert.Spec.accK (fun t => ∑ r : Fin 4000, ∑ k : Fin 6, Cert.Spec.nodeD
          ((V c main_arg0 : S1000000x6.Idx → EReal) (ix2 (Cert.Spec.rowOf t r) k))
          ((V c main_arg2 : S1000000x6.Idx → EReal) (ix2 (Cert.Spec.rowOf t r) k))
          ((V c main_v77 : S1x6.Idx → EReal) (ix2 0 k))
          ((V c main_v78 : S1x6.Idx → EReal) (ix2 0 k))) 250 :=
  (dat1 (F := Ideal) V c).arrAt_apply_of_mem 6 (fun _ => Cert.Spec.accK (fM V c) 250) (fun t hf => (flushed1 V c t ((flush1_6 t).mp hf)).2)
    cfg1.N ⟨249, by decide⟩ _ (by decide) ((flush1_6 _).mpr rfl) (mem1 _ _).2

end Cert.KernelIdeal.Hand

end
-- ==== Proof.KValue.lean ====
import proofs.«168346_j773094113349_1_alg».proof.Proof.MainRun
import proofs.«168346_j773094113349_1_alg».proof.Proof.KArgs
import proofs.«168346_j773094113349_1_alg».proof.Proof.KEdge
import proofs.«168346_j773094113349_1_alg».proof.Proof.KHostStats
import proofs.«168346_j773094113349_1_alg».proof.Proof.KHostScatter
import proofs.«168346_j773094113349_1_alg».proof.Proof.KHostTail
import proofs.«168346_j773094113349_1_alg».proof.Proof.NodeValue

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

theorem agg_eq (n : Fin 1000000) (k : Fin 2) :
    (W16 m c (Proc.devRef .tc main_v73) : S1000000x2.Idx → EReal) (ix2 n k) = Cert.Spec.aggK (xA m c) (eaA m c) (eiA m c) n k := by
  have h : (W16 m c (Proc.devRef .tc main_v73) : S1000000x2.Idx → EReal)
      = (StableHlo.after hostOps1 (W14 m c) (Proc.devRef .tc main_v73) : S1000000x2.Idx → EReal) :=
    StableHlo.after_of_writes_sub hostOps1_1 _ hostOps1_1_writes (by decide)
  rw [h]
  exact hostOps1_v73 (W14 m c) n k (idx0 m c) (idx1 m c) (edge_out m c k) (edge_out_rev m c k)

theorem out5_eq :
    (W17 m c (Proc.devRef .tc main_v79_0) : S1x1.Idx → EReal) (ix2 0 0) = Cert.Spec.powerK (xA m c) (eaA m c) (eiA m c) := by
  have h := W17_arr m c 5
  rw [show (W17 m c (Proc.devRef .tc main_v79_0) : S1x1.Idx → EReal) = ((dat1 (U16 m) c).arrAt 5 cfg1.N : S1x1.Idx → EReal) from h,
    final1_5 (U16 m) c]
  unfold Cert.Spec.powerK
  refine congrArg (fun f => Cert.Spec.accK f 250) (funext fun t => ?_)
  refine Finset.sum_congr rfl fun r _ => ?_
  dsimp only [U16]
  rw [agg_eq m c _ 0, agg_eq m c _ 1, W16_main_arg0 m c]

theorem out6_eq :
    (W17 m c (Proc.devRef .tc main_v79_1) : S1x1.Idx → EReal) (ix2 0 0) = Cert.Spec.mseK (xA m c) (yA m c) (Cert.Spec.colMean (yA m c)) (Cert.Spec.colStd (yA m c)) := by
  have h := W17_arr m c 6
  rw [show (W17 m c (Proc.devRef .tc main_v79_1) : S1x1.Idx → EReal) = ((dat1 (U16 m) c).arrAt 6 cfg1.N : S1x1.Idx → EReal) from h,
    final1_6 (U16 m) c]
  unfold Cert.Spec.mseK
  refine congrArg (fun f => Cert.Spec.accK f 250) (funext fun t => ?_)
  refine Finset.sum_congr rfl fun r _ => Finset.sum_congr rfl fun k _ => ?_
  dsimp only [U16]
  rw [W16_main_arg0 m c, W16_main_arg2 m c, mid_v77 m c, mid_v78 m c]

theorem kernel_value :
    (W18 m c (Proc.devRef .tc main_v90) : S3.Idx → EReal)
      = Cert.Spec.resultK (xA m c) (eaA m c) (yA m c) (eiA m c) (Cert.Spec.colMean (yA m c)) (Cert.Spec.colStd (yA m c)) := by
  rw [show (W18 m c (Proc.devRef .tc main_v90) : S3.Idx → EReal) = (StableHlo.after hostOps2 (W17 m c) (Proc.devRef .tc main_v90) : S3.Idx → EReal) from rfl,
    tail_v90 (W17 m c), out5_eq m c, out6_eq m c]
  rfl

end Cert.KernelIdeal.Hand

end
-- ==== Proof.RefRun.lean ====
import proofs.«168346_j773094113349_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg3 main_v0 (Host.reverse [0]),
    binary main_arg3 main_v0 main_v1 (fun a b => concatenate S2x16000000 1 [⟨S2x8000000, a⟩, ⟨S2x8000000, b⟩] concatenates_S2x8000000_S2x8000000_S2x16000000_d1),
    binary main_arg1 main_arg1 main_v2 (fun a b => concatenate S16000000x2 0 [⟨S8000000x2, a⟩, ⟨S8000000x2, b⟩] concatenates_S8000000x2_S8000000x2_S16000000x2_d0),
    unary main_v1 main_v3 (extractStridedSlice S1x16000000 ![0, 0] · slices_S2x16000000_S1x16000000_0_0),
    reshape main_v3 main_v4 rfl shapeCasts_S1x16000000_S16000000,
    unary main_v1 main_v5 (extractStridedSlice S1x16000000 ![1, 0] · slices_S2x16000000_S1x16000000_1_0),
    reshape main_v5 main_v6 rfl shapeCasts_S1x16000000_S16000000,
    unary main_v2 main_v7 (extractStridedSlice S16000000x1 ![0, 0] · slices_S16000000x2_S16000000x1_0_0),
    reshape main_v7 main_v8 rfl shapeCasts_S16000000x1_S16000000,
    unary main_v2 main_v9 (extractStridedSlice S16000000x1 ![0, 1] · slices_S16000000x2_S16000000x1_0_1),
    reshape main_v9 main_v10 rfl shapeCasts_S16000000x1_S16000000,
    nullary main_c (constantI S_ 32 0#32),
    unary main_c main_v11 (broadcastInDim S16000000 ![] bcast_S_S16000000),
    binary main_v4 main_v11 main_v12 (cmpi .slt),
    nullary main_c_0 (constantI S_ 32 1000000#32),
    unary main_c_0 main_v13 (broadcastInDim S16000000 ![] bcast_S_S16000000),
    binary main_v4 main_v13 main_v14 addi,
    ternary main_v12 main_v14 main_v4 main_v15 select,
    nullary main_c_1 (constantI S_ 32 0#32),
    unary main_c_1 main_v16 (broadcastInDim S16000000 ![] bcast_S_S16000000),
    unary main_v16 main_v17 id,
    unary main_v15 main_v18 (broadcastInDim S16000000x1 ![0] bcast_S16000000_S16000000x1_0),
    unary main_v17 main_v19 (broadcastInDim S16000000x1 ![0] bcast_S16000000_S16000000x1_0),
    binary main_v18 main_v19 main_v20 (fun a b => concatenate S16000000x2 1 [⟨S16000000x1, a⟩, ⟨S16000000x1, b⟩] concatenates_S16000000x1_S16000000x1_S16000000x2_d1),
    binary main_arg0 main_v20 main_v21 (fun x i => Host.gather gather_S1000000x6_S16000000x2_S16000000_n_01_n_n_01_1_11 x i),
    nullary main_c_2 (constantI S_ 32 0#32),
    unary main_c_2 main_v22 (broadcastInDim S16000000 ![] bcast_S_S16000000),
    binary main_v4 main_v22 main_v23 (cmpi .slt),
    nullary main_c_3 (constantI S_ 32 1000000#32),
    unary main_c_3 main_v24 (broadcastInDim S16000000 ![] bcast_S_S16000000),
    binary main_v4 main_v24 main_v25 addi,
    ternary main_v23 main_v25 main_v4 main_v26 select,
    nullary main_c_4 (constantI S_ 32 1#32),
    unary main_c_4 main_v27 (broadcastInDim S16000000 ![] bcast_S_S16000000),
    unary main_v27 main_v28 id,
    unary main_v26 main_v29 (broadcastInDim S16000000x1 ![0] bcast_S16000000_S16000000x1_0),
    unary main_v28 main_v30 (broadcastInDim S16000000x1 ![0] bcast_S16000000_S16000000x1_0),
    binary main_v29 main_v30 main_v31 (fun a b => concatenate S16000000x2 1 [⟨S16000000x1, a⟩, ⟨S16000000x1, b⟩] concatenates_S16000000x1_S16000000x1_S16000000x2_d1),
    binary main_arg0 main_v31 main_v32 (fun x i => Host.gather gather_S1000000x6_S16000000x2_S16000000_n_01_n_n_01_1_11 x i),
    nullary main_cst (constant S_ .f32 0x3C8EFA35#32),
    unary main_cst main_v33 (broadcastInDim S16000000 ![] bcast_S_S16000000),
    binary main_v32 main_v33 main_v34 mulf,
    nullary main_c_5 (constantI S_ 32 0#32),
    unary main_c_5 main_v35 (broadcastInDim S16000000 ![] bcast_S_S16000000),
    binary main_v6 main_v35 main_v36 (cmpi .slt),
    nullary main_c_6 (constantI S_ 32 1000000#32),
    unary main_c_6 main_v37 (broadcastInDim S16000000 ![] bcast_S_S16000000),
    binary main_v6 main_v37 main_v38 addi,
    ternary main_v36 main_v38 main_v6 main_v39 select,
    nullary main_c_7 (constantI S_ 32 0#32),
    unary main_c_7 main_v40 (broadcastInDim S16000000 ![] bcast_S_S16000000),
    unary main_v40 main_v41 id,
    unary main_v39 main_v42 (broadcastInDim S16000000x1 ![0] bcast_S16000000_S16000000x1_0),
    unary main_v41 main_v43 (broadcastInDim S16000000x1 ![0] bcast_S16000000_S16000000x1_0),
    binary main_v42 main_v43 main_v44 (fun a b => concatenate S16000000x2 1 [⟨S16000000x1, a⟩, ⟨S16000000x1, b⟩] concatenates_S16000000x1_S16000000x1_S16000000x2_d1),
    binary main_arg0 main_v44 main_v45 (fun x i => Host.gather gather_S1000000x6_S16000000x2_S16000000_n_01_n_n_01_1_11 x i),
    nullary main_c_8 (constantI S_ 32 0#32),
    unary main_c_8 main_v46 (broadcastInDim S16000000 ![] bcast_S_S16000000),
    binary main_v6 main_v46 main_v47 (cmpi .slt),
    nullary main_c_9 (constantI S_ 32 1000000#32) ]

abbrev wr0 : List (Ref sig .tc) :=
  [main_v0, main_v1, main_v2, main_v3, main_v4, main_v5, main_v6, main_v7, main_v8, main_v9, main_v10, main_c, main_v11, main_v12, main_c_0, main_v13, main_v14, main_v15, main_c_1, main_v16, main_v17, main_v18, main_v19, main_v20, main_v21, main_c_2, main_v22, main_v23, main_c_3, main_v24, main_v25, main_v26, main_c_4, main_v27, main_v28, main_v29, main_v30, main_v31, main_v32, main_cst, main_v33, main_v34, main_c_5, main_v35, main_v36, main_c_6, main_v37, main_v38, main_v39, main_c_7, main_v40, main_v41, main_v42, main_v43, main_v44, main_v45, main_c_8, main_v46, main_v47, main_c_9]

abbrev ops1 : List (HloOp τ sig (Elt F)) :=
  [ unary main_c_9 main_v48 (broadcastInDim S16000000 ![] bcast_S_S16000000),
    binary main_v6 main_v48 main_v49 addi,
    ternary main_v47 main_v49 main_v6 main_v50 select,
    nullary main_c_10 (constantI S_ 32 1#32),
    unary main_c_10 main_v51 (broadcastInDim S16000000 ![] bcast_S_S16000000),
    unary main_v51 main_v52 id,
    unary main_v50 main_v53 (broadcastInDim S16000000x1 ![0] bcast_S16000000_S16000000x1_0),
    unary main_v52 main_v54 (broadcastInDim S16000000x1 ![0] bcast_S16000000_S16000000x1_0),
    binary main_v53 main_v54 main_v55 (fun a b => concatenate S16000000x2 1 [⟨S16000000x1, a⟩, ⟨S16000000x1, b⟩] concatenates_S16000000x1_S16000000x1_S16000000x2_d1),
    binary main_arg0 main_v55 main_v56 (fun x i => Host.gather gather_S1000000x6_S16000000x2_S16000000_n_01_n_n_01_1_11 x i),
    nullary main_cst_11 (constant S_ .f32 0x3C8EFA35#32),
    unary main_cst_11 main_v57 (broadcastInDim S16000000 ![] bcast_S_S16000000),
    binary main_v56 main_v57 main_v58 mulf,
    binary main_v34 main_v58 main_v59 subf,
    unary main_v59 main_v60 Host.cos,
    unary main_v59 main_v61 Host.sin,
    binary main_v21 main_v45 main_v62 mulf,
    binary main_v60 main_v8 main_v63 mulf,
    binary main_v61 main_v10 main_v64 mulf,
    binary main_v63 main_v64 main_v65 addf,
    binary main_v62 main_v65 main_v66 mulf,
    binary main_v61 main_v8 main_v67 mulf,
    binary main_v60 main_v10 main_v68 mulf,
    binary main_v67 main_v68 main_v69 subf,
    binary main_v62 main_v69 main_v70 mulf,
    unary main_v66 main_v71 (broadcastInDim S16000000x1 ![0] bcast_S16000000_S16000000x1_0),
    unary main_v70 main_v72 (broadcastInDim S16000000x1 ![0] bcast_S16000000_S16000000x1_0),
    binary main_v71 main_v72 main_v73 (fun a b => concatenate S16000000x2 1 [⟨S16000000x1, a⟩, ⟨S16000000x1, b⟩] concatenates_S16000000x1_S16000000x1_S16000000x2_d1),
    nullary main_cst_12 (constant S_ .f32 0x00000000#32),
    unary main_cst_12 main_v74 (broadcastInDim S1000000x2 ![] bcast_S_S1000000x2),
    unary main_v4 main_v75 (broadcastInDim S16000000x1 ![0] bcast_S16000000_S16000000x1_0),
    ternary main_v74 main_v75 main_v73 main_v76 (fun x i u => Host.scatterAdd scatter_S1000000x2_S16000000x1_S16000000x2_1_0_0_1 x i u),
    unary main_v76 main_v77 (extractStridedSlice S1000000x1 ![0, 0] · slices_S1000000x2_S1000000x1_0_0),
    reshape main_v77 main_v78 rfl shapeCasts_S1000000x1_S1000000,
    unary main_arg0 main_v79 (extractStridedSlice S1000000x1 ![0, 2] · slices_S1000000x6_S1000000x1_0_2),
    reshape main_v79 main_v80 rfl shapeCasts_S1000000x1_S1000000,
    binary main_v78 main_v80 main_v81 addf,
    unary main_v76 main_v82 (extractStridedSlice S1000000x1 ![0, 1] · slices_S1000000x2_S1000000x1_0_1),
    reshape main_v82 main_v83 rfl shapeCasts_S1000000x1_S1000000,
    unary main_arg0 main_v84 (extractStridedSlice S1000000x1 ![0, 3] · slices_S1000000x6_S1000000x1_0_3),
    reshape main_v84 main_v85 rfl shapeCasts_S1000000x1_S1000000,
    binary main_v83 main_v85 main_v86 addf,
    binary main_v81 main_v81 main_v87 mulf,
    binary main_v86 main_v86 main_v88 mulf,
    binary main_v87 main_v88 main_v89 addf,
    nullary main_cst_13 (constant S_ .f32 0x00000000#32),
    binary main_v89 main_cst_13 main_v90 (fun x v => Host.reduceAdd x v reducesTo_S1000000_S_d0 h_S_),
    nullary main_cst_14 (constant S_ .f32 0x49742400#32),
    binary main_v90 main_cst_14 main_v91 Host.divf,
    nullary main_cst_15 (constant S_ .f32 0x00000000#32),
    binary main_arg2 main_cst_15 main_v92 (fun x v => Host.reduceAdd x v reducesTo_S1000000x6_S6_d0 h_S_),
    unary main_v92 main_v93 (broadcastInDim S1x6 ![1] bcast_S6_S1x6_1),
    nullary main_cst_16 (constant S_ .f32 0x49742400#32),
    unary main_cst_16 main_v94 (broadcastInDim S1x6 ![] bcast_S_S1x6),
    binary main_v93 main_v94 main_v95 Host.divf,
    nullary main_c_17 (constantI S_ 32 1#32),
    TRef.nullary (.of main_call0_call0_cst) (constant S_ .f32 0x00000000#32),
    TRef.binary (.of main_arg2) (.of main_call0_call0_cst) (.of main_call0_call0_v0) (fun x v => Host.reduceAdd x v reducesTo_S1000000x6_S6_d0 h_S_),
    TRef.unary (.of main_call0_call0_v0 : TRef sig ⟨S6, .f32⟩) (.of main_call0_call0_v1 : TRef sig ⟨S1x6, .f32⟩) (broadcastInDim S1x6 ![1] bcast_S6_S1x6_1),
    TRef.nullary (.of main_call0_call0_cst_0) (constant S_ .f32 0x49742400#32),
    TRef.unary (.of main_call0_call0_cst_0 : TRef sig ⟨S_, .f32⟩) (.of main_call0_call0_v2 : TRef sig ⟨S1x6, .f32⟩) (broadcastInDim S1x6 ![] bcast_S_S1x6),
    TRef.binary (.of main_call0_call0_v1) (.of main_call0_call0_v2) (.of main_call0_call0_v3) Host.divf,
    TRef.unary (.of main_call0_call0_v3 : TRef sig ⟨S1x6, .f32⟩) (.of main_call0_call0_v4 : TRef sig ⟨S1000000x6, .f32⟩) (broadcastInDim S1000000x6 ![0, 1] bcast_S1x6_S1000000x6_0_1),
    TRef.binary (.of main_arg2) (.of main_call0_call0_v4) (.of main_call0_call0_v5) subf,
    TRef.binary (.of main_call0_call0_v5) (.of main_call0_call0_v5) (.of main_call0_call0_v6) mulf,
    TRef.unary (.of main_c_17) (.of main_call0_call0_v7) (sitofp .f32),
    TRef.nullary (.of main_call0_call0_cst_1) (constant S_ .f32 0x49742400#32),
    TRef.binary (.of main_call0_call0_cst_1) (.of main_call0_call0_v7) (.of main_call0_call0_v8) subf,
    TRef.nullary (.of main_call0_call0_cst_2) (constant S_ .f32 0x00000000#32),
    TRef.binary (.of main_call0_call0_v6) (.of main_call0_call0_cst_2) (.of main_call0_call0_v9) (fun x v => Host.reduceAdd x v reducesTo_S1000000x6_S6_d0 h_S_),
    TRef.unary (.of main_call0_call0_v9 : TRef sig ⟨S6, .f32⟩) (.of main_call0_call0_v10 : TRef sig ⟨S1x6, .f32⟩) (broadcastInDim S1x6 ![1] bcast_S6_S1x6_1),
    TRef.unary (.of main_call0_call0_v8 : TRef sig ⟨S_, .f32⟩) (.of main_call0_call0_v11 : TRef sig ⟨S1x6, .f32⟩) (broadcastInDim S1x6 ![] bcast_S_S1x6),
    TRef.binary (.of main_call0_call0_v10) (.of main_call0_call0_v11) (.of main_call0_call0_v12) Host.divf,
    TRef.nullary (.of main_call0_call0_cst_3) (constant S_ .f32 0x00000000#32),
    TRef.binary (.of main_call0_call0_v8) (.of main_call0_call0_cst_3) (.of main_call0_call0_v13) (cmpf .ogt),
    TRef.nullary (.of main_call0_call0_cst_4) (constant S_ .f32 0x7FC00000#32),
    TRef.unary (.of main_call0_call0_cst_4) (.of main_call0_call0_call0_v0) id,
    TRef.unary (.of main_call0_call0_call0_v0 : TRef sig ⟨S_, .f32⟩) (.of main_call0_call0_call0_v1 : TRef sig ⟨S1x6, .f32⟩) (broadcastInDim S1x6 ![] bcast_S_S1x6),
    TRef.ternary (.of main_call0_call0_v13) (.of main_call0_call0_v12) (.of main_call0_call0_call0_v1) (.of main_call0_v0) (fun p a b => select (broadcastInDim S1x6 ![] bcast_S_S1x6 p) a b),
    TRef.unary (.of main_call0_v0) (.of main_v96) Host.sqrt,
    unary main_v95 main_v97 (broadcastInDim S1000000x6 ![0, 1] bcast_S1x6_S1000000x6_0_1),
    binary main_arg0 main_v97 main_v98 subf,
    unary main_v96 main_v99 (broadcastInDim S1000000x6 ![0, 1] bcast_S1x6_S1000000x6_0_1) ]

abbrev wr1 : List (Ref sig .tc) :=
  [main_v48, main_v49, main_v50, main_c_10, main_v51, main_v52, main_v53, main_v54, main_v55, main_v56, main_cst_11, main_v57, main_v58, main_v59, main_v60, main_v61, main_v62, main_v63, main_v64, main_v65, main_v66, main_v67, main_v68, main_v69, main_v70, main_v71, main_v72, main_v73, main_cst_12, main_v74, main_v75, main_v76, main_v77, main_v78, main_v79, main_v80, main_v81, main_v82, main_v83, main_v84, main_v85, main_v86, main_v87, main_v88, main_v89, main_cst_13, main_v90, main_cst_14, main_v91, main_cst_15, main_v92, main_v93, main_cst_16, main_v94, main_v95, main_c_17, main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_v12, main_call0_call0_cst_3, main_call0_call0_v13, main_call0_call0_cst_4, main_call0_call0_call0_v0, main_call0_call0_call0_v1, main_call0_v0, main_v96, main_v97, main_v98, main_v99]

abbrev ops2 : List (HloOp τ sig (Elt F)) :=
  [ binary main_v98 main_v99 main_v100 Host.divf,
    unary main_v95 main_v101 (broadcastInDim S1000000x6 ![0, 1] bcast_S1x6_S1000000x6_0_1),
    binary main_arg2 main_v101 main_v102 subf,
    unary main_v96 main_v103 (broadcastInDim S1000000x6 ![0, 1] bcast_S1x6_S1000000x6_0_1),
    binary main_v102 main_v103 main_v104 Host.divf,
    binary main_v100 main_v104 main_v105 subf,
    binary main_v105 main_v105 main_v106 mulf,
    nullary main_cst_18 (constant S_ .f32 0x00000000#32),
    binary main_v106 main_cst_18 main_v107 (fun x v => Host.reduceAdd x v reducesTo_S1000000x6_S_d0_1 h_S_),
    nullary main_cst_19 (constant S_ .f32 0x4AB71B00#32),
    binary main_v107 main_cst_19 main_v108 Host.divf,
    nullary main_cst_20 (constant S_ .f32 0x3F000000#32),
    binary main_cst_20 main_v108 main_v109 mulf,
    nullary main_cst_21 (constant S_ .f32 0x3C23D70A#32),
    binary main_cst_21 main_v91 main_v110 mulf,
    binary main_v109 main_v110 main_v111 addf,
    unary main_v91 main_v112 (broadcastInDim S1 ![] bcast_S_S1),
    unary main_v108 main_v113 (broadcastInDim S1 ![] bcast_S_S1),
    unary main_v111 main_v114 (broadcastInDim S1 ![] bcast_S_S1),
    nary ![main_v112, main_v113, main_v114] main_v115 (fun u => concatenate S3 0 [⟨S1, u 0⟩, ⟨S1, u 1⟩, ⟨S1, u 2⟩] concatenates_S1_S1_S1_S3_d0) ]

abbrev wr2 : List (Ref sig .tc) :=
  [main_v100, main_v101, main_v102, main_v103, main_v104, main_v105, main_v106, main_cst_18, main_v107, main_cst_19, main_v108, main_cst_20, main_v109, main_cst_21, main_v110, main_v111, main_v112, main_v113, main_v114, main_v115]

abbrev ops : List (HloOp τ sig (Elt F)) := ops0 ++ ops1 ++ ops2

theorem main_part0_eq (c : Dev nD) : main_part0 (F := F) c = seq ops0 := by
  chain_rfl

theorem main_part1_eq (c : Dev nD) : main_part1 (F := F) c = seq ops1 := by
  chain_rfl

theorem main_part2_eq (c : Dev nD) : main_part2 (F := F) c = seq ops2 := by
  chain_rfl

theorem main_eq (c : Dev nD) : main (F := F) c = seq ops := by
  show (main_part0 (F := F) c >>= fun _ => main_part1 (F := F) c >>= fun _ => main_part2 (F := F) c) = seq (ops0 ++ ops1 ++ ops2)
  rw [seq_append, seq_append, bind_assoc, main_part0_eq, main_part1_eq, main_part2_eq]

theorem writes_sub_of_mem {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

-- What holds of every operation of each window holds along the whole line.
theorem forall_ops {p : HloOp τ sig (Elt F) → Prop} (h0 : ops0.Forall p) (h1 : ops1.Forall p) (h2 : ops2.Forall p) :
    ops.Forall p :=
  List.forall_append.2 ⟨List.forall_append.2 ⟨h0, h1⟩, h2⟩

theorem ops_sub : (ops : List (HloOp τ sig (Elt F))).Forall fun op => op.bufs ⊆ tcRefs τ sig := by
  apply forall_ops <;> repeat' first | apply And.intro | simp only [List.Forall, unary_bufs_sub, binary_bufs_sub,
    nullary_bufs_sub, reshape_bufs_sub, ternary_bufs_sub, nary_bufs_sub]

theorem ops_fresh : (ops : List (HloOp τ sig (Elt F))).Forall fun op => op.fresh = ∅ := by
  apply forall_ops <;> repeat' first | apply And.intro | rfl

theorem ops_writes_sub : (ops : List (HloOp τ sig (Elt F))).Forall fun op =>
    op.writes ⊆ ((wr0 ++ wr1 ++ wr2).map (Proc.devRef (τ := τ) .tc)).toFinset := by
  apply forall_ops <;> repeat' first | apply And.intro | exact writes_sub_of_mem _ rfl (by decide)

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq (by decide) (by decide) defs main (fun _ => ops) main_eq (fun _ => ops_sub) m ρ
    (fun _ => List.forall_iff_forall_mem.1 ops_fresh)

theorem after_main_arg0 (W : Valuation τ sig (Elt F)) : after ops W (Proc.devRef .tc main_arg0) = W (Proc.devRef .tc main_arg0) :=
  after_of_writes_sub ops W ops_writes_sub (by decide)
theorem after_main_arg1 (W : Valuation τ sig (Elt F)) : after ops W (Proc.devRef .tc main_arg1) = W (Proc.devRef .tc main_arg1) :=
  after_of_writes_sub ops W ops_writes_sub (by decide)
theorem after_main_arg2 (W : Valuation τ sig (Elt F)) : after ops W (Proc.devRef .tc main_arg2) = W (Proc.devRef .tc main_arg2) :=
  after_of_writes_sub ops W ops_writes_sub (by decide)
theorem after_main_arg3 (W : Valuation τ sig (Elt F)) : after ops W (Proc.devRef .tc main_arg3) = W (Proc.devRef .tc main_arg3) :=
  after_of_writes_sub ops W ops_writes_sub (by decide)

end Cert.ReferenceIdeal.RefRun

end
-- ==== Proof.RefArgs.lean ====
import proofs.«168346_j773094113349_1_alg».proof.Proof.RefRun
import proofs.«168346_j773094113349_1_alg».proof.Proof.Spec

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

variable (m : (ℓ : Loc nD τ sig) → Buf (Elt Ideal) ℓ) (d : Dev nD)

abbrev xR : Cert.Spec.SX.Idx → EReal := m ((d.tc : Thread nD τ).loc main_arg0)
abbrev eaR : Cert.Spec.SEA.Idx → EReal := m ((d.tc : Thread nD τ).loc main_arg1)
abbrev yR : Cert.Spec.SX.Idx → EReal := m ((d.tc : Thread nD τ).loc main_arg2)
abbrev eiR : Cert.Spec.SEI.Idx → BitVec 32 := m ((d.tc : Thread nD τ).loc main_arg3)
abbrev WR : Valuation τ sig (Elt Ideal) := after ops (launchContents m d)

end Cert.ReferenceIdeal.RefValue

end
-- ==== Proof.RefEdgesOps.lean ====
import proofs.«168346_j773094113349_1_alg».proof.Proof.RefArgs
import Idealize.ShloMosaic.Lib.Pipeline.Frame

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

section General

variable {Val : EltTy → Type} {l : List (HloOp τ sig Val)} {w : List (Ref sig .tc)} {r : Ref sig .tc}

abbrev Writes (l : List (HloOp τ sig Val)) (w : List (Ref sig .tc)) : Prop :=
  List.Forall₂ (fun op y => op.writes = {Proc.devRef (τ := τ) .tc y}) l w

theorem not_writes_of_not_mem (h : Writes l w) (hr : r ∉ w) : ∀ op ∈ l, Proc.devRef (τ := τ) .tc r ∉ op.writes := by
  induction h with
  | nil => intro op hop; cases hop
  | @cons op y l w hw _ ih =>
    intro op' hop'
    rcases List.mem_cons.mp hop' with rfl | hop'
    · rw [hw, Finset.mem_singleton]
      exact fun e => hr (Proc.devRef_injective _ e ▸ List.mem_cons_self)
    · exact ih (fun hm => hr (List.mem_cons_of_mem _ hm)) op' hop'

theorem after_take_eq (h : Writes l w) (V : Valuation τ sig Val) (k : Nat) (hr : r ∉ w.drop k) :
    after l V (Proc.devRef .tc r) = after (l.take k) V (Proc.devRef .tc r) := by
  conv_lhs => rw [← List.take_append_drop k l, StableHlo.after_append]
  exact after_of_forall_not_mem _ _ (not_writes_of_not_mem (List.forall₂_drop k h) hr)

theorem after_step (h : Writes l w) (V : Valuation τ sig Val) (k : Nat) {op : HloOp τ sig Val} (hk : l[k]? = some op)
    (hr : r ∉ w.drop (k + 1)) :
    after l V (Proc.devRef .tc r) = op.result (after (l.take k) V) (Proc.devRef .tc r) := by
  obtain ⟨hlt, rfl⟩ := List.getElem?_eq_some_iff.mp hk
  conv_lhs => rw [← List.take_append_drop k l, StableHlo.after_append, List.drop_eq_getElem_cons hlt, after_cons]
  exact after_of_forall_not_mem _ _ (not_writes_of_not_mem (List.forall₂_drop (k + 1) h) hr)

end General

abbrev wr : List (Ref sig .tc) := wr0 ++ wr1 ++ wr2

section Line

variable {F : FTy → Type} [FloatOps F]

theorem ops_writes : Writes (ops (F := F)) wr := by
  repeat (refine List.Forall₂.cons rfl ?_)
  exact List.Forall₂.nil

end Line

variable (m : (ℓ : Loc nD τ sig) → Buf (Elt Ideal) ℓ) (d : Dev nD)

theorem step_nullary (k : Nat) {y : Ref sig .tc} {v : y.ty.Contents (Elt Ideal)} {hy}
    (hk : (ops (F := Ideal))[k]? = some (nullary y v hy)) (hy' : y ∉ wr.drop (k + 1)) :
    WR m d (Proc.devRef .tc y) = v := by
  unfold WR
  rw [after_step ops_writes _ k hk hy', nullary_result]

theorem step_unary (k : Nat) {x y : Ref sig .tc} {f : x.ty.Contents (Elt Ideal) → y.ty.Contents (Elt Ideal)} {hx hy}
    (hk : (ops (F := Ideal))[k]? = some (unary x y f hx hy)) (hy' : y ∉ wr.drop (k + 1)) (hx' : x ∉ wr.drop k) :
    WR m d (Proc.devRef .tc y) = f (WR m d (Proc.devRef .tc x)) := by
  unfold WR
  rw [after_step ops_writes _ k hk hy', unary_result, after_take_eq ops_writes _ k hx']

theorem step_binary (k : Nat) {a b y : Ref sig .tc}
    {f : a.ty.Contents (Elt Ideal) → b.ty.Contents (Elt Ideal) → y.ty.Contents (Elt Ideal)} {ha hb hy}
    (hk : (ops (F := Ideal))[k]? = some (binary a b y f ha hb hy)) (hy' : y ∉ wr.drop (k + 1))
    (ha' : a ∉ wr.drop k) (hb' : b ∉ wr.drop k) :
    WR m d (Proc.devRef .tc y) = f (WR m d (Proc.devRef .tc a)) (WR m d (Proc.devRef .tc b)) := by
  unfold WR
  rw [after_step ops_writes _ k hk hy', binary_result, after_take_eq ops_writes _ k ha', after_take_eq ops_writes _ k hb']

theorem step_ternary (k : Nat) {c a b y : Ref sig .tc}
    {f : c.ty.Contents (Elt Ideal) → a.ty.Contents (Elt Ideal) → b.ty.Contents (Elt Ideal) → y.ty.Contents (Elt Ideal)}
    {hc ha hb hy}
    (hk : (ops (F := Ideal))[k]? = some (ternary c a b y f hc ha hb hy)) (hy' : y ∉ wr.drop (k + 1))
    (hc' : c ∉ wr.drop k) (ha' : a ∉ wr.drop k) (hb' : b ∉ wr.drop k) :
    WR m d (Proc.devRef .tc y)
      = f (WR m d (Proc.devRef .tc c)) (WR m d (Proc.devRef .tc a)) (WR m d (Proc.devRef .tc b)) := by
  unfold WR
  rw [after_step ops_writes _ k hk hy', ternary_result, after_take_eq ops_writes _ k hc',
    after_take_eq ops_writes _ k ha', after_take_eq ops_writes _ k hb']

theorem step_reshape (k : Nat) {x y : Ref sig .tc} {he : x.ty.elt = y.ty.elt} {hn : x.ty.shape.ShapeCasts y.ty.shape} {hx hy}
    (hk : (ops (F := Ideal))[k]? = some (reshape x y he hn hx hy)) (hy' : y ∉ wr.drop (k + 1)) (hx' : x ∉ wr.drop k) :
    WR m d (Proc.devRef .tc y) = fun i => he ▸ shapeCast y.ty.shape (WR m d (Proc.devRef .tc x)) hn i := by
  unfold WR
  rw [after_step ops_writes _ k hk hy', reshape_result, after_take_eq ops_writes _ k hx']

theorem step_nary (k : Nat) {n : Nat} {xs : Fin n → Ref sig .tc} {y : Ref sig .tc}
    {f : ((j : Fin n) → (xs j).ty.Contents (Elt Ideal)) → y.ty.Contents (Elt Ideal)} {hxs hy}
    (hk : (ops (F := Ideal))[k]? = some (nary xs y f hxs hy)) (hy' : y ∉ wr.drop (k + 1))
    (hxs' : ∀ j, xs j ∉ wr.drop k) :
    WR m d (Proc.devRef .tc y) = f (fun j => WR m d (Proc.devRef .tc (xs j))) := by
  unfold WR
  rw [after_step ops_writes _ k hk hy', nary_result]
  congr 1; funext j
  exact (after_take_eq ops_writes _ k (hxs' j)).symm

theorem arg0 : WR m d (Proc.devRef .tc main_arg0) = xR m d := after_main_arg0 _
theorem arg1 : WR m d (Proc.devRef .tc main_arg1) = eaR m d := after_main_arg1 _
theorem arg2 : WR m d (Proc.devRef .tc main_arg2) = yR m d := after_main_arg2 _
theorem arg3 : WR m d (Proc.devRef .tc main_arg3) = eiR m d := after_main_arg3 _

end Cert.ReferenceIdeal.RefValue

end
-- ==== Proof.RefGather.lean ====
import proofs.«168346_j773094113349_1_alg».proof.Proof.RefArgs
import Idealize.ShloMosaic.Lib.ValueIdx

noncomputable section

namespace Cert.ReferenceIdeal.RefValue

open Cert.ReferenceIdeal Cert.ReferenceIdeal.Gen
open Idealize.ShloMosaic Idealize.ShloMosaic.ValueIdx

section Pair
variable {α : Type} {N M E w : Nat}
  (wf : GatherDims.WF ⟨2, ![N, M]⟩ ⟨2, ![E, 2]⟩ ⟨1, ![E]⟩ [] [0, 1] [] [0, 1] [] 1 ![1, 1])

abbrev pairDims : GatherDims ⟨2, ![N, M]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

-- A gather of single entries reads the matrix at its index row's (row, column) pair, each read signed and clamped.
theorem gather_pair_apply (hN : 0 < N) (hM : 0 < M) (x : (⟨2, ![N, M]⟩ : Shape).Idx → α)
    (idx : IVec ⟨2, ![E, 2]⟩ w) (e : Fin E) :
    Host.gather (pairDims wf) x idx (ix1 e)
      = x (ix2 ⟨min (idx (ix2 e 0)).toInt.toNat (N - 1), by omega⟩
               ⟨min (idx (ix2 e 1)).toInt.toNat (M - 1), by omega⟩) := by
  unfold Host.gather
  congr 1
  funext a
  refine Fin.ext ?_
  show (pairDims wf).start (ix1 e) idx a + (pairDims wf).batchCoord (ix1 e) a + (pairDims wf).offCoord (ix1 e) a = _
  have ha : a ∈ (pairDims wf).startIndexMap := (by decide : ∀ a : Fin 2, a ∈ ([0, 1] : List (Fin 2))) a
  rw [GatherDims.batchCoord_eq_zero _ _ _ List.not_mem_nil,
    GatherDims.offCoord_eq_zero _ _ _ (fun h => ((GatherDims.mem_sKept _ _).mp h).1 ha), Nat.add_zero]
  unfold GatherDims.start
  rw [dif_pos ha, show (pairDims wf).siIdx (ix1 e) ⟨List.idxOf a (pairDims wf).startIndexMap,
      List.idxOf_lt_length_iff.2 ha⟩ = ix2 e a from by funext b; fin_cases a <;> fin_cases b <;> rfl]
  fin_cases a <;> rfl

end Pair

theorem gather_x_apply {α : Type} (x : S1000000x6.Idx → α) (idx : IVec S16000000x2 32) (e : Fin 16000000) :
    Host.gather gather_S1000000x6_S16000000x2_S16000000_n_01_n_n_01_1_11 x idx (ix1 e)
      = x (ix2 ⟨min (idx (ix2 e 0)).toInt.toNat 999999, by omega⟩ ⟨min (idx (ix2 e 1)).toInt.toNat 5, by omega⟩) :=
  gather_pair_apply Facts₀.gather_S1000000x6_S16000000x2_S16000000_n_01_n_n_01_1_11_wf
    (N := 1000000) (M := 6) (by norm_num) (by norm_num) x idx e

end Cert.ReferenceIdeal.RefValue

end
-- ==== Proof.RefEdges.lean ====
import proofs.«168346_j773094113349_1_alg».proof.Proof.RefArgs
import proofs.«168346_j773094113349_1_alg».proof.Proof.RefEdgesOps
import proofs.«168346_j773094113349_1_alg».proof.Proof.RefGather
import proofs.«168346_j773094113349_1_alg».proof.Proof.ScatterRows
import Idealize.ShloMosaic.Lib.Pipeline.Value
import Idealize.ShloMosaic.PureOps.Ideal.Laws
import Idealize.ShloMosaic.Lib.ValueIdx
import Idealize.ShloMosaic.Lib.IdealHost

set_option maxRecDepth 16384

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo
open Idealize.ShloMosaic.ValueIdx Cert.Spec

section Ops
variable {α : Type}

theorem rev_apply (x : S2x8000000.Idx → α) (r : Fin 2) (e : Fin 8000000) :
    Host.reverse [0] x (ix2 r e) = x (ix2 r.rev e) := by
  unfold Host.reverse
  congr 1
  funext a
  match a with
  | ⟨0, _⟩ => rfl
  | ⟨1, _⟩ => rfl

theorem dblRow_apply (a b : S2x8000000.Idx → α) (h : Shape.Concatenates [S2x8000000, S2x8000000] S2x16000000 1)
    (r : Fin 2) (e' : Fin 16000000) :
    concatenate S2x16000000 1 [⟨S2x8000000, a⟩, ⟨S2x8000000, b⟩] h (ix2 r e')
      = if h' : e'.val < 8000000 then a (ix2 r ⟨e'.val, h'⟩) else b (ix2 r ⟨e'.val - 8000000, by have := e'.isLt; omega⟩) := by
  by_cases h' : e'.val < 8000000
  · rw [dif_pos h']
    exact concatenate_pair_apply_left 1 a b h (ix2 r e') rfl (ix2 r ⟨e'.val, h'⟩)
      (fun c => match c with | ⟨0, _⟩ => rfl | ⟨1, _⟩ => rfl)
  · rw [dif_neg h']
    exact concatenate_pair_apply_right 1 a b h (ix2 r e') rfl rfl (ix2 r ⟨e'.val - 8000000, by have := e'.isLt; omega⟩)
      (fun c hc => match c, hc with
        | ⟨0, _⟩, _ => rfl
        | ⟨1, _⟩, hc => absurd rfl hc)
      (by show (e'.val - 8000000) + 8000000 = e'.val; omega)

theorem dblCol_apply (a b : S8000000x2.Idx → α) (h : Shape.Concatenates [S8000000x2, S8000000x2] S16000000x2 0)
    (e' : Fin 16000000) (k : Fin 2) :
    concatenate S16000000x2 0 [⟨S8000000x2, a⟩, ⟨S8000000x2, b⟩] h (ix2 e' k)
      = if h' : e'.val < 8000000 then a (ix2 ⟨e'.val, h'⟩ k) else b (ix2 ⟨e'.val - 8000000, by have := e'.isLt; omega⟩ k) := by
  by_cases h' : e'.val < 8000000
  · rw [dif_pos h']
    exact concatenate_pair_apply_left 0 a b h (ix2 e' k) rfl (ix2 ⟨e'.val, h'⟩ k)
      (fun c => match c with | ⟨0, _⟩ => rfl | ⟨1, _⟩ => rfl)
  · rw [dif_neg h']
    exact concatenate_pair_apply_right 0 a b h (ix2 e' k) rfl rfl (ix2 ⟨e'.val - 8000000, by have := e'.isLt; omega⟩ k)
      (fun c hc => match c, hc with
        | ⟨0, _⟩, hc => absurd rfl hc
        | ⟨1, _⟩, _ => rfl)
      (by show (e'.val - 8000000) + 8000000 = e'.val; omega)

theorem rowVec_apply (r : Fin 2) (off : Fin 2 → Nat) (hoff0 : off 0 = r.val) (hoff1 : off 1 = 0)
    (x : S2x16000000.Idx → α) (h1 : S2x16000000.Slices off S1x16000000) (h2 : S1x16000000.ShapeCasts S16000000)
    (e : Fin 16000000) :
    shapeCast S16000000 (extractStridedSlice S1x16000000 off x h1) h2 (ix1 e) = x (ix2 r e) := by
  refine (shapeCast_apply _ h2 (ix1 e) (ix2 (0 : Fin 1) e) (by
    rw [Shape.rowMajor_val_two, Shape.rowMajor_val_one]
    show 0 * 16000000 + e.val = e.val
    omega)).trans ?_
  exact extractStridedSlice_apply off x h1 _ (ix2 r e) (fun a => match a with
    | ⟨0, _⟩ => by show r.val = off 0 + 0; omega
    | ⟨1, _⟩ => by show e.val = off 1 + e.val; omega)

theorem colVec_apply (k : Fin 2) (off : Fin 2 → Nat) (hoff0 : off 0 = 0) (hoff1 : off 1 = k.val)
    (x : S16000000x2.Idx → α) (h1 : S16000000x2.Slices off S16000000x1) (h2 : S16000000x1.ShapeCasts S16000000)
    (e : Fin 16000000) :
    shapeCast S16000000 (extractStridedSlice S16000000x1 off x h1) h2 (ix1 e) = x (ix2 e k) := by
  refine (shapeCast_apply _ h2 (ix1 e) (ix2 e (0 : Fin 1)) (by
    rw [Shape.rowMajor_val_two, Shape.rowMajor_val_one]
    show e.val * 1 + 0 = e.val
    omega)).trans ?_
  exact extractStridedSlice_apply off x h1 _ (ix2 e k) (fun a => match a with
    | ⟨0, _⟩ => by show e.val = off 0 + e.val; omega
    | ⟨1, _⟩ => by show k.val = off 1 + 0; omega)

theorem colMat_apply (h : S16000000.BroadcastsInDim S16000000x1 (![0] : Fin 1 → Fin S16000000x1.rank))
    (v : S16000000.Idx → α) (e : Fin 16000000) (z : Fin 1) :
    broadcastInDim S16000000x1 ![0] h v (ix2 e z) = v (ix1 e) :=
  broadcastInDim_apply _ h v (ix2 e z) (ix1 e) (fun a => match a with
    | ⟨0, _⟩ => by
      show e.val = if (16000000 : Nat) = 1 then 0 else e.val
      rw [if_neg (by decide)])

theorem pairCols_apply (a b : S16000000x1.Idx → α) (h : Shape.Concatenates [S16000000x1, S16000000x1] S16000000x2 1)
    (e : Fin 16000000) (k : Fin 2) :
    concatenate S16000000x2 1 [⟨S16000000x1, a⟩, ⟨S16000000x1, b⟩] h (ix2 e k)
      = if k.val = 0 then a (ix2 e (0 : Fin 1)) else b (ix2 e (0 : Fin 1)) := by
  by_cases hk : k.val = 0
  · rw [if_pos hk]
    exact concatenate_pair_apply_left 1 a b h (ix2 e k) rfl (ix2 e (0 : Fin 1))
      (fun c => match c with
        | ⟨0, _⟩ => rfl
        | ⟨1, _⟩ => by show (0 : Nat) = k.val; omega)
  · rw [if_neg hk]
    exact concatenate_pair_apply_right 1 a b h (ix2 e k) rfl rfl (ix2 e (0 : Fin 1))
      (fun c hc => match c, hc with
        | ⟨0, _⟩, _ => rfl
        | ⟨1, _⟩, hc => absurd rfl hc)
      (by show (0 : Nat) + 1 = k.val; have := k.isLt; omega)

theorem splatI_apply (h : S_.BroadcastsInDim S16000000 (![] : Fin 0 → Fin S16000000.rank)) (c : BitVec 32) (j : S16000000.Idx) :
    broadcastInDim S16000000 ![] h (constantI S_ 32 c) j = c :=
  broadcastInDim_scalar_apply h _ j

theorem wrap_apply (h : S_.BroadcastsInDim S16000000 (![] : Fin 0 → Fin S16000000.rank)) (v : IVec S16000000 32) (j : S16000000.Idx) :
    select (cmpi .slt v (broadcastInDim S16000000 ![] h (constantI S_ 32 0#32)))
      (addi v (broadcastInDim S16000000 ![] h (constantI S_ 32 1000000#32))) v j = Cert.Spec.wrapIdx (v j) := by
  show Scalar.select (IntOp.cmpi .slt (v j) (broadcastInDim S16000000 ![] h (constantI S_ 32 0#32) j))
    (IntOp.addi (v j) (broadcastInDim S16000000 ![] h (constantI S_ 32 1000000#32) j)) (v j) = _
  rw [splatI_apply, splatI_apply]
  unfold Cert.Spec.wrapIdx IntOp.cmpi IntOp.addi Scalar.select
  cases hs : (v j).slt 0#32 <;> simp

end Ops

section FloatOpsAt
variable {s : Shape} {a b : s.Idx → EReal} {i : s.Idx} {p q : EReal}

theorem mulE_at (ha : a i = p) (hb : b i = q) : mulf (F := Ideal) (φ := .f32) a b i = p * q := ha ▸ hb ▸ rfl
theorem addE_at (ha : a i = p) (hb : b i = q) : addf (F := Ideal) (φ := .f32) a b i = p + q := ha ▸ hb ▸ rfl
theorem subE_at (ha : a i = p) (hb : b i = q) : subf (F := Ideal) (φ := .f32) a b i = p - q := ha ▸ hb ▸ rfl
theorem cosE_at (ha : a i = p) : Host.cos (F := Ideal) (φ := .f32) a i = Ideal.cos p := ha ▸ rfl
theorem sinE_at (ha : a i = p) : Host.sin (F := Ideal) (φ := .f32) a i = Ideal.sin p := ha ▸ rfl

end FloatOpsAt

section ScatterAt

theorem scatter_x_apply (A : S1000000x2.Idx → EReal) (B : S16000000x1.Idx → BitVec 32) (C : S16000000x2.Idx → EReal)
    (n : Fin 1000000) (k : Fin 2) :
    (fun x i u => Host.scatterAdd (F := Ideal) (φ := .f32) scatter_S1000000x2_S16000000x1_S16000000x2_1_0_0_1 x i u) A B C (ix2 n k)
      = A (ix2 n k) + ∑ e ∈ Finset.univ.filter (fun e : Fin 16000000 => (B (ix2 e (0 : Fin 1))).toInt = (n.val : Int)), C (ix2 e k) := by
  simp only [Host.scatterAdd, Ideal.hostScatterAdd_def]
  exact Cert.ScatterRows.scatterAdd_rows_apply scatter_S1000000x2_S16000000x1_S16000000x2_1_0_0_1_wf A B C n k

-- Two filtered sums agree when the base is zero, the filters select the same rows and the summands agree.
theorem agg_congr {E : Nat} (p q : Fin E → Prop) [DecidablePred p] [DecidablePred q] (u f : Fin E → EReal) (a : EReal)
    (ha : a = 0) (hpq : ∀ e, p e ↔ q e) (huf : ∀ e, u e = f e) :
    a + ∑ e ∈ Finset.univ.filter p, u e = 0 + ∑ e ∈ Finset.univ.filter q, f e := by
  rw [ha, Finset.filter_congr (fun e _ => hpq e)]
  exact congrArg (fun t : EReal => (0 : EReal) + t) (Finset.sum_congr rfl (fun e _ => huf e))

end ScatterAt

section Chain
variable (m : (ℓ : Loc nD τ sig) → Buf (Elt Ideal) ℓ) (d : Dev nD)

-- The step equations of the five operation shapes, their side conditions decided.
private theorem s0 (k : Nat) {y v hy} (hk : (ops (F := Ideal))[k]? = some (nullary y v hy))
    (h : y ∉ wr.drop (k + 1) := by decide) : WR m d (Proc.devRef .tc y) = v := step_nullary m d k hk h
private theorem s1 (k : Nat) {x y f hx hy} (hk : (ops (F := Ideal))[k]? = some (unary x y f hx hy))
    (h : y ∉ wr.drop (k + 1) ∧ x ∉ wr.drop k := by decide) :
    WR m d (Proc.devRef .tc y) = f (WR m d (Proc.devRef .tc x)) := step_unary m d k hk h.1 h.2
private theorem s2 (k : Nat) {a b y f ha hb hy} (hk : (ops (F := Ideal))[k]? = some (binary a b y f ha hb hy))
    (h : y ∉ wr.drop (k + 1) ∧ a ∉ wr.drop k ∧ b ∉ wr.drop k := by decide) :
    WR m d (Proc.devRef .tc y) = f (WR m d (Proc.devRef .tc a)) (WR m d (Proc.devRef .tc b)) := step_binary m d k hk h.1 h.2.1 h.2.2
private theorem s3 (k : Nat) {c a b y f hc ha hb hy}
    (hk : (ops (F := Ideal))[k]? = some (ternary c a b y f hc ha hb hy))
    (h : y ∉ wr.drop (k + 1) ∧ c ∉ wr.drop k ∧ a ∉ wr.drop k ∧ b ∉ wr.drop k := by decide) :
    WR m d (Proc.devRef .tc y) = f (WR m d (Proc.devRef .tc c)) (WR m d (Proc.devRef .tc a)) (WR m d (Proc.devRef .tc b)) :=
  step_ternary m d k hk h.1 h.2.1 h.2.2.1 h.2.2.2
private theorem sR (k : Nat) {x y he hn hx hy} (hk : (ops (F := Ideal))[k]? = some (reshape x y he hn hx hy))
    (h : y ∉ wr.drop (k + 1) ∧ x ∉ wr.drop k := by decide) :
    WR m d (Proc.devRef .tc y) = fun i => he ▸ shapeCast y.ty.shape (WR m d (Proc.devRef .tc x)) hn i := step_reshape m d k hk h.1 h.2

-- One gather chain: the end word wrapped once, paired with a constant column, gathered out of the node array.
theorem gath_apply (x : S1000000x6.Idx → EReal) (v : IVec S16000000 32) (c : BitVec 32) (e : Fin 16000000) :
    Host.gather gather_S1000000x6_S16000000x2_S16000000_n_01_n_n_01_1_11 x
      (concatenate S16000000x2 1
        [⟨S16000000x1, broadcastInDim S16000000x1 ![0] bcast_S16000000_S16000000x1_0
          (select (cmpi .slt v (broadcastInDim S16000000 ![] bcast_S_S16000000 (constantI S_ 32 0#32)))
            (addi v (broadcastInDim S16000000 ![] bcast_S_S16000000 (constantI S_ 32 1000000#32))) v)⟩,
         ⟨S16000000x1, broadcastInDim S16000000x1 ![0] bcast_S16000000_S16000000x1_0
          (id (broadcastInDim S16000000 ![] bcast_S_S16000000 (constantI S_ 32 c)))⟩]
        concatenates_S16000000x1_S16000000x1_S16000000x2_d1) (ix1 e)
      = x (ix2 (node (v (ix1 e))) ⟨min c.toInt.toNat 5, by omega⟩) := by
  refine (gather_x_apply _ _ e).trans (congrArg x (congrArg₂ ix2 (Fin.ext ?_) (Fin.ext ?_)))
  · show min _ 999999 = _
    rw [pairCols_apply, if_pos (show ((0 : Fin 2) : Fin 2).val = 0 from rfl), colMat_apply, wrap_apply]
    rfl
  · show min _ 5 = _
    rw [pairCols_apply, if_neg (show ¬ ((1 : Fin 2) : Fin 2).val = 0 from by decide), colMat_apply]
    exact congrArg (fun t : BitVec 32 => min t.toInt.toNat 5) (splatI_apply _ c _)

section Edge
variable (e : Fin 16000000)

theorem v1_apply :
    WR m d (Proc.devRef .tc main_v1) (ix2 0 e) = iR (eiR m d) e
      ∧ WR m d (Proc.devRef .tc main_v1) (ix2 1 e) = jR (eiR m d) e := by
  rw [s2 m d 1 rfl, s1 m d 0 rfl, arg3]
  constructor <;> refine (dblRow_apply _ _ _ _ e).trans ?_ <;> simp only [iR, jR, e0, e1] <;>
    by_cases h' : e.val < 8000000 <;> simp only [h', dif_pos, dif_neg, not_false_eq_true] <;>
    exact rev_apply _ _ _

theorem v4_apply : WR m d (Proc.devRef .tc main_v4) (ix1 e) = iR (eiR m d) e := by
  rw [sR m d 4 rfl, s1 m d 3 rfl]
  exact (rowVec_apply 0 ![0, 0] rfl rfl _ _ _ e).trans (v1_apply m d e).1

theorem v6_apply : WR m d (Proc.devRef .tc main_v6) (ix1 e) = jR (eiR m d) e := by
  rw [sR m d 6 rfl, s1 m d 5 rfl]
  exact (rowVec_apply 1 ![1, 0] rfl rfl _ _ _ e).trans (v1_apply m d e).2

theorem v2_apply (k : Fin 2) :
    WR m d (Proc.devRef .tc main_v2) (ix2 e k) = eaR m d (ix2 (attrR e) k) := by
  rw [s2 m d 2 rfl, arg1]
  refine (dblCol_apply _ _ _ e k).trans ?_
  unfold attrR
  by_cases h' : e.val < 8000000
  · rw [dif_pos h', dif_pos h']
  · rw [dif_neg h', dif_neg h']

theorem v8_apply : WR m d (Proc.devRef .tc main_v8) (ix1 e) = gAt (eaR m d) (attrR e) := by
  rw [sR m d 8 rfl, s1 m d 7 rfl]
  exact (colVec_apply 0 ![0, 0] rfl rfl _ _ _ e).trans (v2_apply m d e 0)

theorem v10_apply : WR m d (Proc.devRef .tc main_v10) (ix1 e) = bAt (eaR m d) (attrR e) := by
  rw [sR m d 10 rfl, s1 m d 9 rfl]
  exact (colVec_apply 1 ![0, 1] rfl rfl _ _ _ e).trans (v2_apply m d e 1)

theorem v21_apply : WR m d (Proc.devRef .tc main_v21) (ix1 e) = vmAt (xR m d) (iR (eiR m d) e) := by
  rw [s2 m d 24 rfl, arg0, s2 m d 23 rfl, s1 m d 21 rfl, s1 m d 22 rfl, s3 m d 17 rfl, s2 m d 13 rfl, s2 m d 16 rfl,
    s1 m d 12 rfl, s1 m d 15 rfl, s0 m d 11 rfl, s0 m d 14 rfl, s1 m d 20 rfl, s1 m d 19 rfl, s0 m d 18 rfl]
  exact (gath_apply _ _ _ e).trans (by rw [v4_apply]; rfl)

theorem v32_apply : WR m d (Proc.devRef .tc main_v32) (ix1 e) = vaAt (xR m d) (iR (eiR m d) e) := by
  rw [s2 m d 38 rfl, arg0, s2 m d 37 rfl, s1 m d 35 rfl, s1 m d 36 rfl, s3 m d 31 rfl, s2 m d 27 rfl, s2 m d 30 rfl,
    s1 m d 26 rfl, s1 m d 29 rfl, s0 m d 25 rfl, s0 m d 28 rfl, s1 m d 34 rfl, s1 m d 33 rfl, s0 m d 32 rfl]
  exact (gath_apply _ _ _ e).trans (by rw [v4_apply]; rfl)

theorem v45_apply : WR m d (Proc.devRef .tc main_v45) (ix1 e) = vmAt (xR m d) (jR (eiR m d) e) := by
  rw [s2 m d 55 rfl, arg0, s2 m d 54 rfl, s1 m d 52 rfl, s1 m d 53 rfl, s3 m d 48 rfl, s2 m d 44 rfl, s2 m d 47 rfl,
    s1 m d 43 rfl, s1 m d 46 rfl, s0 m d 42 rfl, s0 m d 45 rfl, s1 m d 51 rfl, s1 m d 50 rfl, s0 m d 49 rfl]
  exact (gath_apply _ _ _ e).trans (by rw [v6_apply]; rfl)

theorem v56_apply : WR m d (Proc.devRef .tc main_v56) (ix1 e) = vaAt (xR m d) (jR (eiR m d) e) := by
  rw [s2 m d 69 rfl, arg0, s2 m d 68 rfl, s1 m d 66 rfl, s1 m d 67 rfl, s3 m d 62 rfl, s2 m d 58 rfl, s2 m d 61 rfl,
    s1 m d 57 rfl, s1 m d 60 rfl, s0 m d 56 rfl, s0 m d 59 rfl, s1 m d 65 rfl, s1 m d 64 rfl, s0 m d 63 rfl]
  exact (gath_apply _ _ _ e).trans (by rw [v6_apply]; rfl)

theorem splatF_apply (h : S_.BroadcastsInDim S16000000 (![] : Fin 0 → Fin S16000000.rank)) (c : BitVec 32) (j : S16000000.Idx) :
    broadcastInDim S16000000 ![] h (constant (F := Ideal) S_ .f32 c) j = Ideal.ofBits .f32 c :=
  broadcastInDim_scalar_apply h _ j

theorem v59_apply : WR m d (Proc.devRef .tc main_v59) (ix1 e) = dR (vaAt (xR m d) (iR (eiR m d) e)) (vaAt (xR m d) (jR (eiR m d) e)) := by
  rw [s2 m d 73 rfl, s2 m d 41 rfl, s1 m d 40 rfl, s0 m d 39 rfl, s2 m d 72 rfl, s1 m d 71 rfl, s0 m d 70 rfl]
  exact subE_at (mulE_at (v32_apply m d e) (splatF_apply _ _ _)) (mulE_at (v56_apply m d e) (splatF_apply _ _ _))

theorem v62_apply :
    WR m d (Proc.devRef .tc main_v62) (ix1 e) = vmAt (xR m d) (iR (eiR m d) e) * vmAt (xR m d) (jR (eiR m d) e) := by
  rw [s2 m d 76 rfl]
  exact mulE_at (v21_apply m d e) (v45_apply m d e)

theorem v73_apply (k : Fin 2) :
    WR m d (Proc.devRef .tc main_v73) (ix2 e k) = flowR (xR m d) (eaR m d) (eiR m d) k e := by
  rw [s2 m d 87 rfl, s1 m d 85 rfl, s1 m d 86 rfl]
  refine (pairCols_apply _ _ _ e k).trans ?_
  unfold flowR
  rw [colMat_apply, colMat_apply, s2 m d 80 rfl, s2 m d 79 rfl, s2 m d 77 rfl, s2 m d 78 rfl, s2 m d 84 rfl,
    s2 m d 83 rfl, s2 m d 81 rfl, s2 m d 82 rfl, s1 m d 74 rfl, s1 m d 75 rfl]
  by_cases hk : k.val = 0
  · rw [if_pos hk, if_pos hk]
    exact mulE_at (v62_apply m d e) (addE_at (mulE_at (cosE_at (v59_apply m d e)) (v8_apply m d e))
      (mulE_at (sinE_at (v59_apply m d e)) (v10_apply m d e)))
  · rw [if_neg hk, if_neg hk]
    exact mulE_at (v62_apply m d e) (subE_at (mulE_at (sinE_at (v59_apply m d e)) (v8_apply m d e))
      (mulE_at (cosE_at (v59_apply m d e)) (v10_apply m d e)))

theorem v74_apply (j : S1000000x2.Idx) : WR m d (Proc.devRef .tc main_v74) j = (0 : EReal) := by
  rw [s1 m d 89 rfl, s0 m d 88 rfl]
  exact (broadcastInDim_scalar_apply _ _ j).trans Ideal.ofBits_zero_f32

theorem v75_apply :
    WR m d (Proc.devRef .tc main_v75) (ix2 e (0 : Fin 1)) = iR (eiR m d) e := by
  rw [s1 m d 90 rfl]
  exact (colMat_apply _ _ e 0).trans (v4_apply m d e)

end Edge

theorem ref_v76 (n : Fin 1000000) (k : Fin 2) :
    (WR m d (Proc.devRef .tc main_v76) : S1000000x2.Idx → EReal) (ix2 n k) = Cert.Spec.aggR (xR m d) (eaR m d) (eiR m d) n k := by
  rw [s3 m d 91 rfl]
  refine (scatter_x_apply _ _ _ n k).trans ?_
  unfold aggR
  exact agg_congr _ (fun e' : Fin 16000000 => lands (iR (eiR m d) e') n) _
    (fun e' : Fin 16000000 => flowR (xR m d) (eaR m d) (eiR m d) k e') _ (v74_apply m d (ix2 n k))
    (fun e => by rw [v75_apply]; rfl) (fun e => v73_apply m d e k)

end Chain

end Cert.ReferenceIdeal.RefValue

end
-- ==== Proof.RefStats.lean ====
import proofs.«168346_j773094113349_1_alg».proof.Proof.RefEdgesOps

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

variable (m : (ℓ : Loc nD τ sig) → Buf (Elt Ideal) ℓ) (d : Dev nD)

theorem ref_v95 : (WR m d (Proc.devRef .tc main_v95) : Cert.Spec.ST.Idx → EReal) = Cert.Spec.colMean (yR m d) := by
  rw [step_binary m d 114 rfl (by decide) (by decide) (by decide), step_unary m d 113 rfl (by decide) (by decide), step_nullary m d 112 rfl (by decide),
    step_unary m d 111 rfl (by decide) (by decide), step_binary m d 110 rfl (by decide) (by decide) (by decide), step_nullary m d 109 rfl (by decide), arg2]
  rfl

-- Writing through a typed reference and reading back is the identity.
theorem TRef.ofBuf_toBuf {T : BufTy} (x : TRef sig T) (v : T.Contents (Elt Ideal)) : x.ofBuf (x.toBuf v) = v := by
  obtain ⟨r, rfl, _, _⟩ := x
  rfl

section Typed
variable {Tx Ta Tb Tc Ty : BufTy} {x : TRef sig Tx} {a : TRef sig Ta} {b : TRef sig Tb} {c : TRef sig Tc} {y : TRef sig Ty}
  (k : Nat)

-- The step equations of the operations of a called function, read through their typed references.
theorem tstep0 {v : Ty.Contents (Elt Ideal)} (hk : (ops (F := Ideal))[k]? = some (TRef.nullary y v))
    (hy : y.ref ∉ wr.drop (k + 1) := by decide) : y.ofBuf (WR m d (Proc.devRef .tc y.ref)) = v := by
  rw [step_nullary m d k hk hy, TRef.ofBuf_toBuf]

theorem tstep1 {f : Tx.Contents (Elt Ideal) → Ty.Contents (Elt Ideal)}
    (hk : (ops (F := Ideal))[k]? = some (TRef.unary x y f)) (hy : y.ref ∉ wr.drop (k + 1) := by decide) (hx : x.ref ∉ wr.drop k := by decide) :
    y.ofBuf (WR m d (Proc.devRef .tc y.ref)) = f (x.ofBuf (WR m d (Proc.devRef .tc x.ref))) := by
  rw [step_unary m d k hk hy hx, TRef.ofBuf_toBuf]

theorem tstep2 {f : Ta.Contents (Elt Ideal) → Tb.Contents (Elt Ideal) → Ty.Contents (Elt Ideal)}
    (hk : (ops (F := Ideal))[k]? = some (TRef.binary a b y f)) (hy : y.ref ∉ wr.drop (k + 1) := by decide)
    (ha : a.ref ∉ wr.drop k := by decide) (hb : b.ref ∉ wr.drop k := by decide) :
    y.ofBuf (WR m d (Proc.devRef .tc y.ref))
      = f (a.ofBuf (WR m d (Proc.devRef .tc a.ref))) (b.ofBuf (WR m d (Proc.devRef .tc b.ref))) := by
  rw [step_binary m d k hk hy ha hb, TRef.ofBuf_toBuf]

theorem tstep3 {f : Tc.Contents (Elt Ideal) → Ta.Contents (Elt Ideal) → Tb.Contents (Elt Ideal) → Ty.Contents (Elt Ideal)}
    (hk : (ops (F := Ideal))[k]? = some (TRef.ternary c a b y f)) (hy : y.ref ∉ wr.drop (k + 1) := by decide)
    (hc : c.ref ∉ wr.drop k := by decide) (ha : a.ref ∉ wr.drop k := by decide) (hb : b.ref ∉ wr.drop k := by decide) :
    y.ofBuf (WR m d (Proc.devRef .tc y.ref))
      = f (c.ofBuf (WR m d (Proc.devRef .tc c.ref))) (a.ofBuf (WR m d (Proc.devRef .tc a.ref)))
          (b.ofBuf (WR m d (Proc.devRef .tc b.ref))) := by
  rw [step_ternary m d k hk hy hc ha hb, TRef.ofBuf_toBuf]

end Typed

abbrev tY : TRef sig ⟨S1000000x6, .f32⟩ := .of main_arg2
abbrev tOne : TRef sig ⟨S_, .i32⟩ := .of main_c_17
abbrev tStd : TRef sig ⟨S1x6, .f32⟩ := .of main_v96

-- At a literal reference the move between the buffer's type and the value's is the identity.
theorem ofBuf_tY (w : (main_arg2 : Ref sig .tc).ty.Contents (Elt Ideal)) : tY.ofBuf w = w := rfl
theorem ofBuf_tOne (w : (main_c_17 : Ref sig .tc).ty.Contents (Elt Ideal)) : tOne.ofBuf w = w := rfl
theorem ofBuf_tStd (w : (main_v96 : Ref sig .tc).ty.Contents (Elt Ideal)) : tStd.ofBuf w = w := rfl

theorem ref_v96 : (WR m d (Proc.devRef .tc main_v96) : Cert.Spec.ST.Idx → EReal) = Cert.Spec.colStd (yR m d) := by
  have h := tstep1 m d 139 rfl
  rw [tstep3 m d 138 rfl, tstep1 m d 137 rfl, tstep1 m d 136 rfl,
    tstep0 m d 135 rfl, tstep2 m d 134 rfl, tstep0 m d 133 rfl,
    tstep2 m d 132 rfl, tstep1 m d 131 rfl, tstep1 m d 130 rfl,
    tstep2 m d 129 rfl, tstep0 m d 128 rfl, tstep2 m d 127 rfl,
    tstep0 m d 126 rfl, tstep1 m d 125 rfl, tstep2 m d 124 rfl,
    tstep2 m d 123 rfl, tstep1 m d 122 rfl, tstep2 m d 121 rfl,
    tstep1 m d 120 rfl, tstep0 m d 119 rfl, tstep1 m d 118 rfl,
    tstep2 m d 117 rfl, tstep0 m d 116 rfl,
    step_nullary m d 115 rfl (by decide), arg2, ofBuf_tStd, ofBuf_tY, ofBuf_tOne] at h
  exact h

end Cert.ReferenceIdeal.RefValue

end
-- ==== Proof.RefPower.lean ====
import proofs.«168346_j773094113349_1_alg».proof.Proof.RefEdgesOps
import Idealize.ShloMosaic.Lib.IdealHost
import Idealize.ShloMosaic.Lib.Pipeline.Value
import Idealize.ShloMosaic.Lib.ValueIdxRank1

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo
open Idealize.ShloMosaic.ValueIdx

theorem col_apply {K : Nat} (a : (⟨2, ![1000000, K]⟩ : Shape).Idx → EReal) (c : Fin K) (off : Fin 2 → Nat)
    (hoff0 : off 0 = 0) (hoff1 : off 1 = c.val)
    (hs : (⟨2, ![1000000, K]⟩ : Shape).Slices off S1000000x1) (hc : S1000000x1.ShapeCasts S1000000) (n : Fin 1000000) :
    shapeCast S1000000 (extractStridedSlice S1000000x1 off a hs) hc (ix1 n) = a (ix2 n c) := by
  refine (shapeCast_apply _ hc (ix1 n) (ix2 n (0 : Fin 1)) ?_).trans ?_
  · rw [Shape.rowMajor_val_two, Shape.rowMajor_val_one]
    show n.val * 1 + 0 = n.val
    omega
  · refine extractStridedSlice_apply off a hs _ (ix2 n c) fun b => ?_
    match b with
    | ⟨0, _⟩ => show n.val = off 0 + n.val; rw [hoff0]; omega
    | ⟨1, _⟩ => show c.val = off 1 + 0; rw [hoff1]; omega

theorem sumNodes_apply (v : FVec Ideal S1000000 .f32) (f : Fin 1000000 → EReal) (hv : ∀ n, v (ix1 n) = f n)
    (z : S_.Idx → Ideal .f32) (hz : ∀ j, z j = 0)
    (hr : S1000000.ReducesTo [0] S_) (hu : 0 < S_.numel) (j : S_.Idx) :
    Host.reduceAdd (F := Ideal) v z hr hu j = 0 + ∑ n : Fin 1000000, f n := by
  rw [hostReduceAdd_apply, Ideal.hostReduceAdd_total hr (fun b => b.elim0), hz]
  refine congrArg (fun s : EReal => 0 + s) ?_
  refine (Equiv.sum_comp (idxEquiv1 (n := 1000000)).symm v).symm.trans ?_
  exact Finset.sum_congr rfl fun n _ => hv n

variable (m : (ℓ : Loc nD τ sig) → Buf (Elt Ideal) ℓ) (d : Dev nD)

abbrev aR : S1000000x2.Idx → EReal := WR m d (Proc.devRef .tc main_v76)

theorem val_v78 (n : Fin 1000000) :
    (WR m d (Proc.devRef .tc main_v78) : S1000000.Idx → EReal) (ix1 n) = aR m d (ix2 n (0 : Fin 2)) := by
  refine (congrFun (step_reshape m d 93 rfl (by decide) (by decide)) (ix1 n)).trans ?_
  rw [step_unary m d 92 rfl (by decide) (by decide)]
  exact col_apply (K := 2) (aR m d) (0 : Fin 2) ![0, 0] rfl rfl slices_S1000000x2_S1000000x1_0_0 shapeCasts_S1000000x1_S1000000 n

theorem val_v80 (n : Fin 1000000) :
    (WR m d (Proc.devRef .tc main_v80) : S1000000.Idx → EReal) (ix1 n) = xR m d (ix2 n (2 : Fin 6)) := by
  refine (congrFun (step_reshape m d 95 rfl (by decide) (by decide)) (ix1 n)).trans ?_
  rw [step_unary m d 94 rfl (by decide) (by decide), arg0]
  exact col_apply (K := 6) (xR m d) (2 : Fin 6) ![0, 2] rfl rfl slices_S1000000x6_S1000000x1_0_2 shapeCasts_S1000000x1_S1000000 n

theorem val_v83 (n : Fin 1000000) :
    (WR m d (Proc.devRef .tc main_v83) : S1000000.Idx → EReal) (ix1 n) = aR m d (ix2 n (1 : Fin 2)) := by
  refine (congrFun (step_reshape m d 98 rfl (by decide) (by decide)) (ix1 n)).trans ?_
  rw [step_unary m d 97 rfl (by decide) (by decide)]
  exact col_apply (K := 2) (aR m d) (1 : Fin 2) ![0, 1] rfl rfl slices_S1000000x2_S1000000x1_0_1 shapeCasts_S1000000x1_S1000000 n

theorem val_v85 (n : Fin 1000000) :
    (WR m d (Proc.devRef .tc main_v85) : S1000000.Idx → EReal) (ix1 n) = xR m d (ix2 n (3 : Fin 6)) := by
  refine (congrFun (step_reshape m d 100 rfl (by decide) (by decide)) (ix1 n)).trans ?_
  rw [step_unary m d 99 rfl (by decide) (by decide), arg0]
  exact col_apply (K := 6) (xR m d) (3 : Fin 6) ![0, 3] rfl rfl slices_S1000000x6_S1000000x1_0_3 shapeCasts_S1000000x1_S1000000 n

theorem sq_chain (p a q b : FVec Ideal S1000000 .f32) (i : S1000000.Idx) :
    addf (F := Ideal) (φ := .f32) (mulf (addf p a) (addf p a)) (mulf (addf q b) (addf q b)) i
      = Cert.Spec.nodeSq (p i) (q i) (a i) (b i) := rfl

theorem val_v89 (n : Fin 1000000) :
    (WR m d (Proc.devRef .tc main_v89) : S1000000.Idx → EReal) (ix1 n)
      = Cert.Spec.nodeSq (aR m d (ix2 n (0 : Fin 2))) (aR m d (ix2 n (1 : Fin 2))) (xR m d (ix2 n (2 : Fin 6))) (xR m d (ix2 n (3 : Fin 6))) := by
  rw [step_binary m d 104 rfl (by decide) (by decide) (by decide), step_binary m d 102 rfl (by decide) (by decide) (by decide), step_binary m d 103 rfl (by decide) (by decide) (by decide),
    step_binary m d 96 rfl (by decide) (by decide) (by decide), step_binary m d 101 rfl (by decide) (by decide) (by decide)]
  refine (sq_chain (WR m d (Proc.devRef .tc main_v78)) (WR m d (Proc.devRef .tc main_v80)) (WR m d (Proc.devRef .tc main_v83)) (WR m d (Proc.devRef .tc main_v85)) (ix1 n)).trans ?_
  rw [val_v78, val_v80, val_v83, val_v85]

abbrev PR : EReal :=
  0 + ∑ n : Fin 1000000, Cert.Spec.nodeSq (aR m d (ix2 n (0 : Fin 2))) (aR m d (ix2 n (1 : Fin 2))) (xR m d (ix2 n (2 : Fin 6))) (xR m d (ix2 n (3 : Fin 6)))

theorem val_v91 (j : S_.Idx) :
    (WR m d (Proc.devRef .tc main_v91) : S_.Idx → EReal) j = Ideal.div (PR m d) Cert.Spec.cN := by
  rw [step_binary m d 108 rfl (by decide) (by decide) (by decide), step_binary m d 106 rfl (by decide) (by decide) (by decide), step_nullary m d 107 rfl (by decide),
    step_nullary m d 105 rfl (by decide)]
  show Ideal.div (Host.reduceAdd (F := Ideal) (φ := .f32) (WR m d (Proc.devRef .tc main_v89)) (constant (F := Ideal) S_ .f32 0x00000000#32) reducesTo_S1000000_S_d0 h_S_ j)
      (Ideal.ofBits .f32 0x49742400#32) = _
  rw [sumNodes_apply _ _ (val_v89 m d) (constant (F := Ideal) S_ .f32 0x00000000#32) (fun _ => Ideal.ofBits_zero_f32)]
  rfl

end Cert.ReferenceIdeal.RefValue
end
-- ==== Proof.RefRest.lean ====
import proofs.«168346_j773094113349_1_alg».proof.Proof.RefPower
import Idealize.ShloMosaic.Lib.IdealHost
import Idealize.ShloMosaic.Lib.Pipeline.Value
import Idealize.ShloMosaic.Lib.ValueIdxRank1

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo
open Idealize.ShloMosaic.ValueIdx

theorem rowBcast_apply (t : S1x6.Idx → EReal) (h : S1x6.BroadcastsInDim S1000000x6 (![0, 1] : Fin 2 → Fin S1000000x6.rank))
    (i : S1000000x6.Idx) : broadcastInDim S1000000x6 ![0, 1] h t i = t (ix2 (0 : Fin 1) (i 1)) := by
  refine broadcastInDim_apply _ h t i (ix2 (0 : Fin 1) (i 1)) fun a => ?_
  match a with
  | ⟨0, _⟩ => rfl
  | ⟨1, _⟩ => rfl
theorem sumAll_apply (v : FVec Ideal S1000000x6 .f32) (f : S1000000x6.Idx → EReal) (hv : ∀ i, v i = f i)
    (z : S_.Idx → Ideal .f32) (hz : ∀ j, z j = 0)
    (hr : S1000000x6.ReducesTo [0, 1] S_) (hu : 0 < S_.numel) (j : S_.Idx) :
    Host.reduceAdd (F := Ideal) v z hr hu j = 0 + ∑ i : S1000000x6.Idx, f i := by
  rw [hostReduceAdd_apply, Ideal.hostReduceAdd_total hr (fun b => b.elim0), hz]
  exact congrArg (fun s : EReal => 0 + s) (Finset.sum_congr rfl fun i _ => hv i)

theorem out_apply (p q r : S_.Idx → EReal) (P M : EReal)
    (hp : ∀ j, p j = Ideal.div P Cert.Spec.cN) (hq : ∀ j, q j = Ideal.div M Cert.Spec.c6N)
    (hr : ∀ j, r j = Cert.Spec.cHalf * Ideal.div M Cert.Spec.c6N + Cert.Spec.cTau * Ideal.div P Cert.Spec.cN)
    (hb : S_.BroadcastsInDim S1 (![] : Fin 0 → Fin S1.rank)) (hcat : Shape.Concatenates [S1, S1, S1] S3 0) :
    concatenate S3 0 [⟨S1, broadcastInDim S1 ![] hb p⟩, ⟨S1, broadcastInDim S1 ![] hb q⟩, ⟨S1, broadcastInDim S1 ![] hb r⟩] hcat
      = Cert.Spec.outOf P M := by
  funext i
  have hi : (i 0).val < 3 := (i 0).isLt
  have h3 : (i 0).val = 0 ∨ (i 0).val = 1 ∨ (i 0).val = 2 := by omega
  unfold Cert.Spec.outOf
  rcases h3 with h | h | h
  · refine (concatenate_apply_piece (α := EReal) (t := S3) (0 : Fin 1)
      [⟨S1, broadcastInDim S1 ![] hb p⟩, ⟨S1, broadcastInDim S1 ![] hb q⟩, ⟨S1, broadcastInDim S1 ![] hb r⟩] hcat i 0 (show (0 : Nat) < 3 by omega)
      S1 (broadcastInDim S1 ![] hb p) rfl rfl 0 rfl
      (ix1 (0 : Fin 1)) (fun b hb' => absurd (Subsingleton.elim _ _) hb') (by rw [h]; rfl)).trans ?_
    rw [if_pos h, broadcastInDim_scalar_apply, hp]
  · refine (concatenate_apply_piece (α := EReal) (t := S3) (0 : Fin 1)
      [⟨S1, broadcastInDim S1 ![] hb p⟩, ⟨S1, broadcastInDim S1 ![] hb q⟩, ⟨S1, broadcastInDim S1 ![] hb r⟩] hcat i 1 (show (1 : Nat) < 3 by omega)
      S1 (broadcastInDim S1 ![] hb q) rfl rfl 1 rfl
      (ix1 (0 : Fin 1)) (fun b hb' => absurd (Subsingleton.elim _ _) hb') (by rw [h]; rfl)).trans ?_
    rw [if_neg (by omega), if_pos h, broadcastInDim_scalar_apply, hq]
  · refine (concatenate_apply_piece (α := EReal) (t := S3) (0 : Fin 1)
      [⟨S1, broadcastInDim S1 ![] hb p⟩, ⟨S1, broadcastInDim S1 ![] hb q⟩, ⟨S1, broadcastInDim S1 ![] hb r⟩] hcat i 2 (show (2 : Nat) < 3 by omega)
      S1 (broadcastInDim S1 ![] hb r) rfl rfl 2 rfl
      (ix1 (0 : Fin 1)) (fun b hb' => absurd (Subsingleton.elim _ _) hb') (by rw [h]; rfl)).trans ?_
    rw [if_neg (by omega), if_neg (by omega), broadcastInDim_scalar_apply, hr]

variable (m : (ℓ : Loc nD τ sig) → Buf (Elt Ideal) ℓ) (d : Dev nD)

abbrev mR : S1x6.Idx → EReal := WR m d (Proc.devRef .tc main_v95)
abbrev sR : S1x6.Idx → EReal := WR m d (Proc.devRef .tc main_v96)

theorem val_v106 (i : S1000000x6.Idx) :
    (WR m d (Proc.devRef .tc main_v106) : S1000000x6.Idx → EReal) i
      = Cert.Spec.nodeD (xR m d i) (yR m d i) (mR m d (ix2 (0 : Fin 1) (i 1))) (sR m d (ix2 (0 : Fin 1) (i 1))) := by
  rw [step_binary m d 149 rfl (by decide) (by decide) (by decide), step_binary m d 148 rfl (by decide) (by decide) (by decide), step_binary m d 143 rfl (by decide) (by decide) (by decide),
    step_binary m d 147 rfl (by decide) (by decide) (by decide), step_binary m d 141 rfl (by decide) (by decide) (by decide), step_binary m d 145 rfl (by decide) (by decide) (by decide),
    step_unary m d 140 rfl (by decide) (by decide), step_unary m d 142 rfl (by decide) (by decide), step_unary m d 144 rfl (by decide) (by decide),
    step_unary m d 146 rfl (by decide) (by decide), arg0, arg2]
  show (Ideal.div (xR m d i - broadcastInDim S1000000x6 ![0, 1] bcast_S1x6_S1000000x6_0_1 (mR m d) i)
          (broadcastInDim S1000000x6 ![0, 1] bcast_S1x6_S1000000x6_0_1 (sR m d) i)
        - Ideal.div (yR m d i - broadcastInDim S1000000x6 ![0, 1] bcast_S1x6_S1000000x6_0_1 (mR m d) i)
          (broadcastInDim S1000000x6 ![0, 1] bcast_S1x6_S1000000x6_0_1 (sR m d) i))
      * (Ideal.div (xR m d i - broadcastInDim S1000000x6 ![0, 1] bcast_S1x6_S1000000x6_0_1 (mR m d) i)
          (broadcastInDim S1000000x6 ![0, 1] bcast_S1x6_S1000000x6_0_1 (sR m d) i)
        - Ideal.div (yR m d i - broadcastInDim S1000000x6 ![0, 1] bcast_S1x6_S1000000x6_0_1 (mR m d) i)
          (broadcastInDim S1000000x6 ![0, 1] bcast_S1x6_S1000000x6_0_1 (sR m d) i)) = _
  rw [rowBcast_apply (mR m d), rowBcast_apply (sR m d)]
  rfl

abbrev MR : EReal :=
  0 + ∑ i : S1000000x6.Idx, Cert.Spec.nodeD (xR m d i) (yR m d i) (mR m d (ix2 (0 : Fin 1) (i 1))) (sR m d (ix2 (0 : Fin 1) (i 1)))

theorem val_v108 (j : S_.Idx) :
    (WR m d (Proc.devRef .tc main_v108) : S_.Idx → EReal) j = Ideal.div (MR m d) Cert.Spec.c6N := by
  rw [step_binary m d 153 rfl (by decide) (by decide) (by decide), step_binary m d 151 rfl (by decide) (by decide) (by decide), step_nullary m d 152 rfl (by decide), step_nullary m d 150 rfl (by decide)]
  show Ideal.div (Host.reduceAdd (F := Ideal) (φ := .f32) (WR m d (Proc.devRef .tc main_v106)) (constant (F := Ideal) S_ .f32 0x00000000#32) reducesTo_S1000000x6_S_d0_1 h_S_ j)
      (Ideal.ofBits .f32 0x4AB71B00#32) = _
  rw [sumAll_apply _ _ (val_v106 m d) (constant (F := Ideal) S_ .f32 0x00000000#32) (fun _ => Ideal.ofBits_zero_f32)]
  rfl

theorem val_v111 (j : S_.Idx) :
    (WR m d (Proc.devRef .tc main_v111) : S_.Idx → EReal) j
      = Cert.Spec.cHalf * Ideal.div (MR m d) Cert.Spec.c6N + Cert.Spec.cTau * Ideal.div (PR m d) Cert.Spec.cN := by
  rw [step_binary m d 158 rfl (by decide) (by decide) (by decide), step_binary m d 155 rfl (by decide) (by decide) (by decide), step_binary m d 157 rfl (by decide) (by decide) (by decide), step_nullary m d 154 rfl (by decide), step_nullary m d 156 rfl (by decide)]
  show Ideal.ofBits .f32 0x3F000000#32 * (WR m d (Proc.devRef .tc main_v108) : S_.Idx → EReal) j
      + Ideal.ofBits .f32 0x3C23D70A#32 * (WR m d (Proc.devRef .tc main_v91) : S_.Idx → EReal) j = _
  rw [val_v108, val_v91]
  rfl

theorem val_v115 : (WR m d (Proc.devRef .tc main_v115) : S3.Idx → EReal) = Cert.Spec.outOf (PR m d) (MR m d) := by
  refine (step_nary m d 162 rfl (by decide) (by decide)).trans ?_
  show concatenate S3 0 [⟨S1, WR m d (Proc.devRef .tc main_v112)⟩, ⟨S1, WR m d (Proc.devRef .tc main_v113)⟩, ⟨S1, WR m d (Proc.devRef .tc main_v114)⟩] concatenates_S1_S1_S1_S3_d0 = _
  rw [step_unary m d 159 rfl (by decide) (by decide), step_unary m d 160 rfl (by decide) (by decide), step_unary m d 161 rfl (by decide) (by decide)]
  exact out_apply _ _ _ (PR m d) (MR m d) (val_v91 m d) (val_v108 m d) (val_v111 m d) bcast_S_S1 concatenates_S1_S1_S1_S3_d0

theorem ref_value
    (h76 : ∀ n k, (WR m d (Proc.devRef .tc main_v76) : S1000000x2.Idx → EReal) (ix2 n k) = Cert.Spec.aggR (xR m d) (eaR m d) (eiR m d) n k)
    (h95 : (WR m d (Proc.devRef .tc main_v95) : Cert.Spec.ST.Idx → EReal) = Cert.Spec.colMean (yR m d))
    (h96 : (WR m d (Proc.devRef .tc main_v96) : Cert.Spec.ST.Idx → EReal) = Cert.Spec.colStd (yR m d)) :
    (WR m d (Proc.devRef .tc main_v115) : Cert.Spec.S3v.Idx → EReal)
      = Cert.Spec.resultR (xR m d) (eaR m d) (yR m d) (eiR m d) (Cert.Spec.colMean (yR m d)) (Cert.Spec.colStd (yR m d)) := by
  have hP : PR m d = Cert.Spec.powerR (xR m d) (eaR m d) (eiR m d) := by
    unfold PR Cert.Spec.powerR
    refine congrArg (fun s : EReal => 0 + s) (Finset.sum_congr rfl fun n _ => ?_)
    have e0 : aR m d (ix2 n (0 : Fin 2)) = Cert.Spec.aggR (xR m d) (eaR m d) (eiR m d) n 0 := h76 n 0
    have e1 : aR m d (ix2 n (1 : Fin 2)) = Cert.Spec.aggR (xR m d) (eaR m d) (eiR m d) n 1 := h76 n 1
    rw [e0, e1]
  have hM : MR m d = Cert.Spec.mseR (xR m d) (yR m d) (Cert.Spec.colMean (yR m d)) (Cert.Spec.colStd (yR m d)) := by
    have e95 : mR m d = Cert.Spec.colMean (yR m d) := h95
    have e96 : sR m d = Cert.Spec.colStd (yR m d) := h96
    unfold MR Cert.Spec.mseR
    rw [e95, e96]
  rw [val_v115, hP, hM]
  rfl

end Cert.ReferenceIdeal.RefValue

end
-- ==== Proof.Algebra.lean ====
import proofs.«168346_j773094113349_1_alg».proof.Proof.Spec
import Mathlib.Algebra.BigOperators.Fin
import Mathlib.Data.Fintype.BigOperators
import Mathlib.Data.EReal.Operations
import Mathlib.Analysis.SpecialFunctions.Trigonometric.Basic

namespace Cert.Spec

open Idealize.ShloMosaic Idealize.ShloMosaic.ValueIdx

/-- An extended real that is a real number. -/
abbrev IsReal (a : EReal) : Prop := ∃ r : ℝ, a = (r : EReal)

theorem degK_real : IsReal degK := by
  unfold degK Ideal.ofBits Ideal.ieee
  simp only []
  rw [if_neg (by decide), if_neg (by decide)]
  exact ⟨_, rfl⟩

/-- On real angles the unit change distributes over the difference. -/
theorem dR_eq_dK {a b : EReal} (ha : IsReal a) (hb : IsReal b) : dR a b = dK a b := by
  obtain ⟨a, rfl⟩ := ha; obtain ⟨b, rfl⟩ := hb; obtain ⟨d, hd⟩ := degK_real
  unfold dR dK; rw [hd]
  rw [← EReal.coe_mul, ← EReal.coe_mul, ← EReal.coe_sub, ← EReal.coe_sub, ← EReal.coe_mul]
  congr 1; ring

/-- Along the reversed edge the angle difference changes sign: the cosine keeps its value, the sine changes sign. -/
theorem rev_eq {vm0 va0 vm1 va1 g b : EReal} (hm0 : IsReal vm0) (h0 : IsReal va0) (hm1 : IsReal vm1) (h1 : IsReal va1)
    (hg : IsReal g) (hb : IsReal b) :
    pR vm1 va1 vm0 va0 g b = pRevK vm0 va0 vm1 va1 g b ∧ qR vm1 va1 vm0 va0 g b = qRevK vm0 va0 vm1 va1 g b := by
  obtain ⟨vm0, rfl⟩ := hm0; obtain ⟨va0, rfl⟩ := h0; obtain ⟨vm1, rfl⟩ := hm1; obtain ⟨va1, rfl⟩ := h1
  obtain ⟨g, rfl⟩ := hg; obtain ⟨b, rfl⟩ := hb; obtain ⟨d, hd⟩ := degK_real
  have e : va1 * d - va0 * d = -((va0 - va1) * d) := by ring
  unfold pR pRevK qR qRevK dR dK; rw [hd, show (0 : EReal) = ((0 : ℝ) : EReal) from rfl]
  simp only [← EReal.coe_mul, ← EReal.coe_sub, ← EReal.coe_add, Ideal.cos_coe, Ideal.sin_coe, e, Real.cos_neg, Real.sin_neg]
  constructor <;> (congr 1; ring)

/-- A filtered sum over two halves laid end to end is the sum of the filtered sums over the halves. -/
theorem sum_filter_halves {m : ℕ} {M : Type*} [AddCommMonoid M] (p : Fin (m + m) → Prop) [DecidablePred p]
    (f : Fin (m + m) → M) (p1 p2 : Fin m → Prop) [DecidablePred p1] [DecidablePred p2] (f1 f2 : Fin m → M)
    (hp1 : ∀ e, p (Fin.castAdd m e) ↔ p1 e) (hp2 : ∀ e, p (Fin.natAdd m e) ↔ p2 e)
    (hf1 : ∀ e, f (Fin.castAdd m e) = f1 e) (hf2 : ∀ e, f (Fin.natAdd m e) = f2 e) :
    ∑ e ∈ Finset.univ.filter p, f e
      = ∑ e ∈ Finset.univ.filter p1, f1 e + ∑ e ∈ Finset.univ.filter p2, f2 e := by
  rw [Finset.sum_filter, Finset.sum_filter, Finset.sum_filter, Fin.sum_univ_add]
  congr 1
  · exact Finset.sum_congr rfl fun e _ => by rw [hf1]; exact if_congr (hp1 e) rfl rfl
  · exact Finset.sum_congr rfl fun e _ => by rw [hf2]; exact if_congr (hp2 e) rfl rfl

/-- Adding the blocks' sums one after another from zero gives the sum over the blocks. -/
theorem accK_eq_sum (f : Fin 250 → EReal) : accK f 250 = ∑ t : Fin 250, f t := by
  have h : ∀ n, accK f n = ∑ t ∈ Finset.range n, (if h : t < 250 then f ⟨t, h⟩ else 0) := by
    intro n
    induction n with
    | zero => rfl
    | succ n ih => rw [Finset.sum_range_succ, ← ih]; rfl
  rw [h, ← Fin.sum_univ_eq_sum_range (fun t => if h : t < 250 then f ⟨t, h⟩ else 0) 250]
  exact Finset.sum_congr rfl fun t _ => dif_pos t.isLt

/-- The blocks of 4000 rows tile the 1000000 nodes. -/
theorem sum_rows {M : Type*} [AddCommMonoid M] (g : Fin 1000000 → M) :
    ∑ t : Fin 250, ∑ r : Fin 4000, g (rowOf t r) = ∑ n : Fin 1000000, g n := by
  show _ = ∑ n : Fin (250 * 4000), g n
  rw [← Equiv.sum_comp (finProdFinEquiv (m := 250) (n := 4000)), Fintype.sum_prod_type]
  refine Finset.sum_congr rfl fun t _ => Finset.sum_congr rfl fun r _ => ?_
  congr 1
  apply Fin.ext
  show 4000 * t.val + r.val = r.val + 4000 * t.val
  omega

section
variable (x : SX.Idx → EReal) (ea : SEA.Idx → EReal) (y : SX.Idx → EReal) (ei : SEI.Idx → BitVec 32)
variable (tm ts : ST.Idx → EReal) (e : Fin 8000000)

theorem castAdd_lt : (Fin.castAdd 8000000 e).val < 8000000 := e.isLt

theorem natAdd_sub (h : (Fin.natAdd 8000000 e).val - 8000000 < 8000000) :
    (⟨(Fin.natAdd 8000000 e).val - 8000000, h⟩ : Fin 8000000) = e :=
  Fin.ext (by simp only [Fin.coe_natAdd]; omega)

theorem not_lt_natAdd : ¬ (Fin.natAdd 8000000 e).val < 8000000 := by
  rw [Fin.coe_natAdd]; omega

/-- The first half of the doubled list is the edge list, the second half the edge list with the ends exchanged. -/
theorem iR_castAdd : iR ei (Fin.castAdd 8000000 e) = e0 ei e := by unfold iR; rw [dif_pos (castAdd_lt e)]; rfl
theorem jR_castAdd : jR ei (Fin.castAdd 8000000 e) = e1 ei e := by unfold jR; rw [dif_pos (castAdd_lt e)]; rfl
theorem attrR_castAdd : attrR (Fin.castAdd 8000000 e) = e := by unfold attrR; rw [dif_pos (castAdd_lt e)]; rfl
theorem iR_natAdd : iR ei (Fin.natAdd 8000000 e) = e1 ei e := by unfold iR; rw [dif_neg (not_lt_natAdd e), natAdd_sub]
theorem jR_natAdd : jR ei (Fin.natAdd 8000000 e) = e0 ei e := by unfold jR; rw [dif_neg (not_lt_natAdd e), natAdd_sub]
theorem attrR_natAdd : attrR (Fin.natAdd 8000000 e) = e := by unfold attrR; rw [dif_neg (not_lt_natAdd e), natAdd_sub]

variable (hx : ∀ i, IsReal (x i)) (hea : ∀ i, IsReal (ea i))
include hx

theorem flowR_castAdd (k : Fin 2) : flowR x ea ei k (Fin.castAdd 8000000 e) = fwdK x ea ei k e := by
  unfold flowR fwdK pR qR pFwdK qFwdK
  rw [iR_castAdd, jR_castAdd, attrR_castAdd, dR_eq_dK (a := vaAt x (e0 ei e)) (b := vaAt x (e1 ei e)) (hx _) (hx _)]

include hea

theorem flowR_natAdd (k : Fin 2) : flowR x ea ei k (Fin.natAdd 8000000 e) = revK x ea ei k e := by
  unfold flowR revK
  have h := rev_eq (vm0 := vmAt x (e0 ei e)) (va0 := vaAt x (e0 ei e)) (vm1 := vmAt x (e1 ei e)) (va1 := vaAt x (e1 ei e))
    (g := gAt ea e) (b := bAt ea e) (hx _) (hx _) (hx _) (hx _) (hea _) (hea _)
  rw [iR_natAdd, jR_natAdd, attrR_natAdd, h.1, h.2]

/-- One scatter over the doubled list is the two scatters over the list. -/
theorem aggR_eq_aggK (n : Fin 1000000) (k : Fin 2) : aggR x ea ei n k = aggK x ea ei n k := by
  unfold aggR aggK
  rw [zero_add, zero_add, zero_add]
  exact sum_filter_halves (m := 8000000) (fun e' => lands (iR ei e') n) (flowR x ea ei k)
    (fun e => lands (e0 ei e) n) (fun e => lands (e1 ei e) n) (fwdK x ea ei k) (revK x ea ei k)
    (fun e => by rw [iR_castAdd]) (fun e => by rw [iR_natAdd])
    (fun e => flowR_castAdd x ea ei e hx k) (fun e => flowR_natAdd x ea ei e hx hea k)

theorem powerK_eq : powerK x ea ei = powerR x ea ei := by
  unfold powerK powerR
  rw [accK_eq_sum, zero_add]
  refine (sum_rows (fun n => nodeSq (aggK x ea ei n 0) (aggK x ea ei n 1)
    (x (ix2 n (2 : Fin 6))) (x (ix2 n (3 : Fin 6))))).trans ?_
  exact Finset.sum_congr rfl fun n _ => by rw [aggR_eq_aggK x ea ei hx hea, aggR_eq_aggK x ea ei hx hea]

omit hx hea

theorem mseK_eq : mseK x y tm ts = mseR x y tm ts := by
  unfold mseK mseR
  rw [accK_eq_sum, zero_add]
  refine (sum_rows (fun n => ∑ k : Fin 6, nodeD (x (ix2 n k)) (y (ix2 n k))
    (tm (ix2 (0 : Fin 1) k)) (ts (ix2 (0 : Fin 1) k)))).trans ?_
  exact (sum_idx2 (fun i : SX.Idx => nodeD (x i) (y i) (tm (ix2 (0 : Fin 1) (i 1))) (ts (ix2 (0 : Fin 1) (i 1))))).symm

/-- On real node features and edge attributes the kernel-shaped result is the reference-shaped one. -/
theorem result_eq (hx : ∀ i, IsReal (x i)) (hea : ∀ i, IsReal (ea i)) :
    resultK x ea y ei tm ts = resultR x ea y ei tm ts := by
  unfold resultK resultR
  rw [powerK_eq x ea ei hx hea, mseK_eq x y tm ts]

end

end Cert.Spec
-- ==== Proof.Finite.lean ====
import proofs.«168346_j773094113349_1_alg».proof.Defs
import proofs.«168346_j773094113349_1_alg».proof.Proof.Gen.Pre_finite_inputs
import Idealize.ShloMosaic.Lib.ReduceAll
import Idealize.ShloMosaic.Lib.ValueIdx
import Idealize.ShloMosaic.PureOps.Ideal

namespace Cert.Proof.Finite

open Idealize.ShloMosaic Cert.Pre_finite_inputs

instance : Subsingleton S_.Idx := ⟨fun a b => funext fun d => d.elim0⟩

/-- An extended real whose absolute value is strictly below `+∞` is neither infinity, so it is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- A conjunction over all entries that is one holds at every entry. -/
theorem reals_of_all {s : Shape} {axes : List (Fin s.rank)} (a : s.Idx → EReal)
    (hb : S_.BroadcastsInDim s (![] : Fin 0 → Fin s.rank)) (hr : s.ReducesTo axes S_) (hu : 0 < S_.numel)
    (e : Host.reduce IntOp.andi
          (cmpf (F := Ideal) .olt (Host.absf (F := Ideal) (φ := .f32) a)
            (broadcastInDim s ![] hb (constant (F := Ideal) S_ .f32 0x7F800000#32)))
          (constantI S_ 1 1#1) hr hu ValueIdx.ix0 = 1#1) (i : s.Idx) : ∃ r : ℝ, a i = (r : EReal) :=
  real_of_abs_lt (a i) (Host.reduce_andi_all _ _ hr hu ValueIdx.ix0 e i)

attribute [local instance] Gen.facts

/-- Where the precondition evaluates to one, every entry of the three float arrays is a real. -/
theorem reals_of_fn (x : S1000000x6.Idx → EReal) (ea : S8000000x2.Idx → EReal) (y : S1000000x6.Idx → EReal)
    (ei : S2x8000000.Idx → BitVec 32) (h : fn (F := Ideal) x ea y ei = (fun _ => 1#1)) :
    (∀ i, ∃ r : ℝ, x i = (r : EReal)) ∧ (∀ i, ∃ r : ℝ, ea i = (r : EReal)) ∧ (∀ i, ∃ r : ℝ, y i = (r : EReal)) := by
  have h0 := congrFun h ValueIdx.ix0
  dsimp only [fn, andi] at h0
  obtain ⟨h01, h2⟩ := IntOp.andi_eq_one.1 h0
  obtain ⟨h0', h1⟩ := IntOp.andi_eq_one.1 h01
  exact ⟨reals_of_all x _ _ _ h0', reals_of_all ea _ _ _ h1, reals_of_all y _ _ _ h2⟩

end Cert.Proof.Finite
-- ==== Proof.lean ====
import proofs.«168346_j773094113349_1_alg».proof.Defs
import proofs.«168346_j773094113349_1_alg».proof.Proof.Gen.Kernel
import proofs.«168346_j773094113349_1_alg».proof.Proof.Gen.KernelIdeal
import proofs.«168346_j773094113349_1_alg».proof.Proof.Gen.ReferenceIdeal
import proofs.«168346_j773094113349_1_alg».proof.Proof.Gen.Pre_finite_inputs
import proofs.«168346_j773094113349_1_alg».proof.Proof.MainRunK
import proofs.«168346_j773094113349_1_alg».proof.Proof.KValue
import proofs.«168346_j773094113349_1_alg».proof.Proof.RefEdges
import proofs.«168346_j773094113349_1_alg».proof.Proof.RefStats
import proofs.«168346_j773094113349_1_alg».proof.Proof.RefRest
import proofs.«168346_j773094113349_1_alg».proof.Proof.Algebra
import proofs.«168346_j773094113349_1_alg».proof.Proof.Finite

noncomputable section

namespace Cert.Proof

open Idealize.ShloMosaic Idealize.ShloMosaic.TcCoe Idealize.SL.Sem Idealize.ShloMosaic.StableHlo
open Cert.ReferenceIdeal.RefValue Cert.ReferenceIdeal.RefRun

/-- Each kernel program's run ends with its four arguments as launched. -/
theorem frame_k : Cert.frame_Kernel (hKernel := Cert.Kernel.Gen.facts) (hPre_finite_inputs := Cert.Pre_finite_inputs.Gen.facts) :=
  fun m ρ _ => (θ_run Cert.Kernel.defs _ _).mono (fun r h c => (h c).2) (Cert.Kernel.Hand.run_result (F := Bits) m ρ)

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c => (h c).2) (Cert.KernelIdeal.Hand.run_result (F := Ideal) m ρ)

/-- The reference is host operations only, none of which writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c _).trans ((after_main_arg0 _).trans rfl), (h c _).trans ((after_main_arg1 _).trans rfl),
     (h c _).trans ((after_main_arg2 _).trans rfl), (h c _).trans ((after_main_arg3 _).trans rfl)⟩) (run (F := Ideal) m ρ)

/-- Both runs end with the specification's result of the same four arrays, in the kernel's arrangement and in the
    reference's; on real node features and edge attributes the two arrangements agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W18 m c (Proc.devRef .tc Cert.KernelIdeal.main_v90),
    Cert.KernelIdeal.Hand.run_result (F := Ideal) m ρ, ?_⟩
  refine (θ_run Cert.ReferenceIdeal.defs _ _).mono (fun r h c => ⟨?_, (h c _).trans ((after_main_arg0 _).trans rfl),
    (h c _).trans ((after_main_arg1 _).trans rfl), (h c _).trans ((after_main_arg2 _).trans rfl),
    (h c _).trans ((after_main_arg3 _).trans rfl)⟩) (run (F := Ideal) m' ρ')
  obtain ⟨h0, h1, h2, h3⟩ := hagree c
  obtain ⟨hx, hea, _⟩ := Cert.Proof.Finite.reals_of_fn _ _ _ _ (hpre c)
  refine (h c _).trans ?_
  show (WR m' c (Proc.devRef .tc Cert.ReferenceIdeal.main_v115) : Cert.Spec.S3v.Idx → EReal)
    = (Cert.KernelIdeal.Hand.W18 m c (Proc.devRef .tc Cert.KernelIdeal.main_v90) : Cert.KernelIdeal.S3.Idx → EReal)
  rw [ref_value m' c (ref_v76 m' c) (ref_v95 m' c) (ref_v96 m' c), Cert.KernelIdeal.Hand.kernel_value m c]
  have e0 : xR m' c = Cert.KernelIdeal.Hand.xA m c := h0
  have e1 : eaR m' c = Cert.KernelIdeal.Hand.eaA m c := h1
  have e2 : yR m' c = Cert.KernelIdeal.Hand.yA m c := h2
  have e3 : eiR m' c = Cert.KernelIdeal.Hand.eiA m c := h3
  rw [e0, e1, e2, e3]
  exact (Cert.Spec.result_eq _ _ _ _ _ _ hx hea).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
